-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x128 : Shape := ⟨2, ![1600000, 128]⟩
abbrev S32x128 : Shape := ⟨2, ![32, 128]⟩
abbrev S32 : Shape := ⟨1, ![32]⟩
abbrev S2x32x96 : Shape := ⟨3, ![2, 32, 96]⟩
abbrev S2x32 : Shape := ⟨2, ![2, 32]⟩
abbrev S128x32 : Shape := ⟨2, ![128, 32]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S2x32x96 : S_.BroadcastsInDim S2x32x96 (![] : Fin 0 → Fin S2x32x96.rank)
  reducesTo_S2x32x96_S_d0_1_2 : S2x32x96.ReducesTo [0, 1, 2] S_
  bcast_S_S2x32 : S_.BroadcastsInDim S2x32 (![] : Fin 0 → Fin S2x32.rank)
  reducesTo_S2x32_S_d0_1 : S2x32.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part8 {F : FTy → Type} [FloatOps F] (main_arg1 : IVec S2x1600000 32) (main_v134 : IVec S_ 1) (main_c_54 : IVec S_ 32) : IVec S_ 1 :=
  let main_v135 : IVec S2x1600000 32 := broadcastInDim S2x1600000 ![] bcast_S_S2x1600000 main_c_54
  let main_v136 : IVec S2x1600000 1 := cmpi .slt main_arg1 main_v135
  let main_c_55 : IVec S_ 1 := constantI S_ 1 1#1
  let main_v137 : IVec S_ 1 := (fun x v => Host.reduce IntOp.andi x v reducesTo_S2x1600000_S_d0_1 h_S_) main_v136 main_c_55
  let main_v138 : IVec S_ 1 := andi main_v134 main_v137
  main_v138

def fn_part7 {F : FTy → Type} [FloatOps F] (main_arg1 : IVec S2x1600000 32) (main_arg8 : FVec F S32 .f32) (main_arg14 : FVec F S32 .f32) (main_arg24 : FVec F S128 .f32) (main_v118 : IVec S_ 1) (main_cst_46 : FVec F S_ .f32) : IVec S_ 1 :=
  let main_v119 : FVec F S32 .f32 := broadcastInDim S32 ![] bcast_S_S32 main_cst_46
  let main_v120 : IVec S32 1 := cmpf .oge main_arg8 main_v119
  let main_c_47 : IVec S_ 1 := constantI S_ 1 1#1
  let main_v121 : IVec S_ 1 := (fun x v => Host.reduce IntOp.andi x v reducesTo_S32_S_d0 h_S_) main_v120 main_c_47
  let main_v122 : IVec S_ 1 := andi main_v118 main_v121
  let main_cst_48 : FVec F S_ .f32 := constant S_ .f32 0x00000000#32
  let main_v123 : FVec F S32 .f32 := broadcastInDim S32 ![] bcast_S_S32 main_cst_48
  let main_v124 : IVec S32 1 := cmpf .oge main_arg14 main_v123
  let main_c_49 : IVec S_ 1 := constantI S_ 1 1#1
  let main_v125 : IVec S_ 1 := (fun x v => Host.reduce IntOp.andi x v reducesTo_S32_S_d0 h_S_) main_v124 main_c_49
  let main_v126 : IVec S_ 1 := andi main_v122 main_v125
  let main_cst_50 : FVec F S_ .f32 := constant S_ .f32 0x00000000#32
  let main_v127 : FVec F S128 .f32 := broadcastInDim S128 ![] bcast_S_S128 main_cst_50
  let main_v128 : IVec S128 1 := cmpf .oge main_arg24 main_v127
  let main_c_51 : IVec S_ 1 := constantI S_ 1 1#1
  let main_v129 : IVec S_ 1 := (fun x v => Host.reduce IntOp.andi x v reducesTo_S128_S_d0 h_S_) main_v128 main_c_51
  let main_v130 : IVec S_ 1 := andi main_v126 main_v129
  let main_c_52 : IVec S_ 32 := constantI S_ 32 0#32
  let main_v131 : IVec S2x1600000 32 := broadcastInDim S2x1600000 ![] bcast_S_S2x1600000 main_c_52
  let main_v132 : IVec S2x1600000 1 := cmpi .sge main_arg1 main_v131
  let main_c_53 : IVec S_ 1 := constantI S_ 1 1#1
  let main_v133 : IVec S_ 1 := (fun x v => Host.reduce IntOp.andi x v reducesTo_S2x1600000_S_d0_1 h_S_) main_v132 main_c_53
  let main_v134 : IVec S_ 1 := andi main_v130 main_v133
  let main_c_54 : IVec S_ 32 := constantI S_ 32 50000#32
  fn_part8 (F := F) main_arg1 main_v134 main_c_54

def fn_part6 {F : FTy → Type} [FloatOps F] (main_arg1 : IVec S2x1600000 32) (main_arg8 : FVec F S32 .f32) (main_arg14 : FVec F S32 .f32) (main_arg22 : FVec F S128 .f32) (main_arg23 : FVec F S128 .f32) (main_arg24 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_cst_46 : FVec F S_ .f32 := constant S_ .f32 0x00000000#32
  fn_part7 (F := F) main_arg1 main_arg8 main_arg14 main_arg24 main_v118 main_cst_46

def fn_part5 {F : FTy → Type} [FloatOps F] (main_arg1 : IVec S2x1600000 32) (main_arg8 : FVec F S32 .f32) (main_arg14 : FVec F S32 .f32) (main_arg19 : FVec F S128x32 .f32) (main_arg20 : FVec F S128 .f32) (main_arg21 : FVec F S128 .f32) (main_arg22 : FVec F S128 .f32) (main_arg23 : FVec F S128 .f32) (main_arg24 : FVec F S128 .f32) (main_v83 : IVec S_ 1) (main_v84 : FVec F S2x32 .f32) (main_cst_32 : FVec F S_ .f32) : IVec S_ 1 :=
  let main_v85 : FVec F S2x32 .f32 := broadcastInDim S2x32 ![] bcast_S_S2x32 main_cst_32
  let main_v86 : IVec S2x32 1 := cmpf .olt main_v84 main_v85
  let main_c_33 : IVec S_ 1 := constantI S_ 1 1#1
  let main_v87 : IVec S_ 1 := (fun x v => Host.reduce IntOp.andi x v reducesTo_S2x32_S_d0_1 h_S_) main_v86 main_c_33
  let main_v88 : IVec S_ 1 := andi main_v83 main_v87
  let main_v89 : FVec F S128x32 .f32 := Host.absf main_arg19
  let main_cst_34 : FVec F S_ .f32 := constant S_ .f32 0x7F800000#32
  let main_v90 : FVec F S128x32 .f32 := broadcastInDim S128x32 ![] bcast_S_S128x32 main_cst_34
  let main_v91 : IVec S128x32 1 := cmpf .olt main_v89 main_v90
  let main_c_35 : IVec S_ 1 := constantI S_ 1 1#1
  let main_v92 : IVec S_ 1 := (fun x v => Host.reduce IntOp.andi x v reducesTo_S128x32_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg1 main_arg8 main_arg14 main_arg22 main_arg23 main_arg24 main_v98 main_v101 main_c_39

def fn_part4 {F : FTy → Type} [FloatOps F] (main_arg1 : IVec S2x1600000 32) (main_arg8 : FVec F S32 .f32) (main_arg14 : FVec F S32 .f32) (main_arg15 : FVec F S2x32x96 .f32) (main_arg16 : FVec F S2x32 .f32) (main_arg17 : FVec F S2x32x96 .f32) (main_arg18 : FVec F S2x32 .f32) (main_arg19 : FVec F S128x32 .f32) (main_arg20 : FVec F S128 .f32) (main_arg21 : FVec F S128 .f32) (main_arg22 : FVec F S128 .f32) (main_arg23 : FVec F S128 .f32) (main_arg24 : FVec F S128 .f32) (main_v63 : IVec S_ 1) (main_v67 : IVec S_ 1) : IVec S_ 1 :=
  let main_v68 : IVec S_ 1 := andi main_v63 main_v67
  let main_v69 : FVec F S2x32x96 .f32 := Host.absf main_arg15
  let main_cst_26 : FVec F S_ .f32 := constant S_ .f32 0x7F800000#32
  let main_v70 : FVec F S2x32x96 .f32 := broadcastInDim S2x32x96 ![] bcast_S_S2x32x96 main_cst_26
  let main_v71 : IVec S2x32x96 1 := cmpf .olt main_v69 main_v70
  let main_c_27 : IVec S_ 1 := constantI S_ 1 1#1
  let main_v72 : IVec S_ 1 := (fun x v => Host.reduce IntOp.andi x v reducesTo_S2x32x96_S_d0_1_2 h_S_) main_v71 main_c_27
  let main_v73 : IVec S_ 1 := andi main_v68 main_v72
  let main_v74 : FVec F S2x32 .f32 := Host.absf main_arg16
  let main_cst_28 : FVec F S_ .f32 := constant S_ .f32 0x7F800000#32
  let main_v75 : FVec F S2x32 .f32 := broadcastInDim S2x32 ![] bcast_S_S2x32 main_cst_28
  let main_v76 : IVec S2x32 1 := cmpf .olt main_v74 main_v75
  let main_c_29 : IVec S_ 1 := constantI S_ 1 1#1
  let main_v77 : IVec S_ 1 := (fun x v => Host.reduce IntOp.andi x v reducesTo_S2x32_S_d0_1 h_S_) main_v76 main_c_29
  let main_v78 : IVec S_ 1 := andi main_v73 main_v77
  let main_v79 : FVec F S2x32x96 .f32 := Host.absf main_arg17
  let main_cst_30 : FVec F S_ .f32 := constant S_ .f32 0x7F800000#32
  let main_v80 : FVec F S2x32x96 .f32 := broadcastInDim S2x32x96 ![] bcast_S_S2x32x96 main_cst_30
  let main_v81 : IVec S2x32x96 1 := cmpf .olt main_v79 main_v80
  let main_c_31 : IVec S_ 1 := constantI S_ 1 1#1
  let main_v82 : IVec S_ 1 := (fun x v => Host.reduce IntOp.andi x v reducesTo_S2x32x96_S_d0_1_2 h_S_) main_v81 main_c_31
  let main_v83 : IVec S_ 1 := andi main_v78 main_v82
  let main_v84 : FVec F S2x32 .f32 := Host.absf main_arg18
  let main_cst_32 : FVec F S_ .f32 := constant S_ .f32 0x7F800000#32
  fn_part5 (F := F) main_arg1 main_arg8 main_arg14 main_arg19 main_arg20 main_arg21 main_arg22 main_arg23 main_arg24 main_v83 main_v84 main_cst_32

def fn_part3 {F : FTy → Type} [FloatOps F] (main_arg1 : IVec S2x1600000 32) (main_arg8 : FVec F S32 .f32) (main_arg12 : FVec F S32 .f32) (main_arg13 : FVec F S32 .f32) (main_arg14 : FVec F S32 .f32) (main_arg15 : FVec F S2x32x96 .f32) (main_arg16 : FVec F S2x32 .f32) (main_arg17 : FVec F S2x32x96 .f32) (main_arg18 : FVec F S2x32 .f32) (main_arg19 : FVec F S128x32 .f32) (main_arg20 : FVec F S128 .f32) (main_arg21 : FVec F S128 .f32) (main_arg22 : FVec F S128 .f32) (main_arg23 : FVec F S128 .f32) (main_arg24 : FVec F S128 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg1 main_arg8 main_arg14 main_arg15 main_arg16 main_arg17 main_arg18 main_arg19 main_arg20 main_arg21 main_arg22 main_arg23 main_arg24 main_v63 main_v67

def fn_part2 {F : FTy → Type} [FloatOps F] (main_arg1 : IVec S2x1600000 32) (main_arg8 : FVec F S32 .f32) (main_arg9 : FVec F S32x128 .f32) (main_arg10 : FVec F S32 .f32) (main_arg11 : FVec F S32 .f32) (main_arg12 : FVec F S32 .f32) (main_arg13 : FVec F S32 .f32) (main_arg14 : FVec F S32 .f32) (main_arg15 : FVec F S2x32x96 .f32) (main_arg16 : FVec F S2x32 .f32) (main_arg17 : FVec F S2x32x96 .f32) (main_arg18 : FVec F S2x32 .f32) (main_arg19 : FVec F S128x32 .f32) (main_arg20 : FVec F S128 .f32) (main_arg21 : FVec F S128 .f32) (main_arg22 : FVec F S128 .f32) (main_arg23 : FVec F S128 .f32) (main_arg24 : FVec F S128 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x128 .f32 := Host.absf main_arg9
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg1 main_arg8 main_arg12 main_arg13 main_arg14 main_arg15 main_arg16 main_arg17 main_arg18 main_arg19 main_arg20 main_arg21 main_arg22 main_arg23 main_arg24 main_v48 main_v49 main_v50

def fn_part1 {F : FTy → Type} [FloatOps F] (main_arg1 : IVec S2x1600000 32) (main_arg5 : FVec F S32 .f32) (main_arg6 : FVec F S32 .f32) (main_arg7 : FVec F S32 .f32) (main_arg8 : FVec F S32 .f32) (main_arg9 : FVec F S32x128 .f32) (main_arg10 : FVec F S32 .f32) (main_arg11 : FVec F S32 .f32) (main_arg12 : FVec F S32 .f32) (main_arg13 : FVec F S32 .f32) (main_arg14 : FVec F S32 .f32) (main_arg15 : FVec F S2x32x96 .f32) (main_arg16 : FVec F S2x32 .f32) (main_arg17 : FVec F S2x32x96 .f32) (main_arg18 : FVec F S2x32 .f32) (main_arg19 : FVec F S128x32 .f32) (main_arg20 : FVec F S128 .f32) (main_arg21 : FVec F S128 .f32) (main_arg22 : FVec F S128 .f32) (main_arg23 : FVec F S128 .f32) (main_arg24 : FVec F S128 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x1600000 32) (main_arg2 : FVec F S1600000x128 .f32) (main_arg3 : FVec F S32x128 .f32) (main_arg4 : FVec F S32 .f32) (main_arg5 : FVec F S32 .f32) (main_arg6 : FVec F S32 .f32) (main_arg7 : FVec F S32 .f32) (main_arg8 : FVec F S32 .f32) (main_arg9 : FVec F S32x128 .f32) (main_arg10 : FVec F S32 .f32) (main_arg11 : FVec F S32 .f32) (main_arg12 : FVec F S32 .f32) (main_arg13 : FVec F S32 .f32) (main_arg14 : FVec F S32 .f32) (main_arg15 : FVec F S2x32x96 .f32) (main_arg16 : FVec F S2x32 .f32) (main_arg17 : FVec F S2x32x96 .f32) (main_arg18 : FVec F S2x32 .f32) (main_arg19 : FVec F S128x32 .f32) (main_arg20 : FVec F S128 .f32) (main_arg21 : FVec F S128 .f32) (main_arg22 : FVec F S128 .f32) (main_arg23 : FVec F S128 .f32) (main_arg24 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x1600000 : Shape := ⟨2, ![2, 1600000]⟩
abbrev S1600000x128 : Shape := ⟨2, ![1600000, 128]⟩
abbrev S32x128 : Shape := ⟨2, ![32, 128]⟩
abbrev S32 : Shape := ⟨1, ![32]⟩
abbrev S2x32x96 : Shape := ⟨3, ![2, 32, 96]⟩
abbrev S2x32 : Shape := ⟨2, ![2, 32]⟩
abbrev S128x32 : Shape := ⟨2, ![128, 32]⟩
abbrev S128 : Shape := ⟨1, ![128]⟩
abbrev S1x32 : Shape := ⟨2, ![1, 32]⟩
abbrev S50000x32 : Shape := ⟨2, ![50000, 32]⟩
abbrev S1600000x32 : Shape := ⟨2, ![1600000, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1x32x96 : Shape := ⟨3, ![1, 32, 96]⟩
abbrev S32x96 : Shape := ⟨2, ![32, 96]⟩
abbrev S32x32 : Shape := ⟨2, ![32, 32]⟩
abbrev S32x64 : Shape := ⟨2, ![32, 64]⟩
abbrev S64 : Shape := ⟨1, ![64]⟩
abbrev S1x64 : Shape := ⟨2, ![1, 64]⟩
abbrev S1x128 : Shape := ⟨2, ![1, 128]⟩
abbrev S10000x128 : Shape := ⟨2, ![10000, 128]⟩
abbrev S10000x32 : Shape := ⟨2, ![10000, 32]⟩
abbrev S20000x128 : Shape := ⟨2, ![20000, 128]⟩
abbrev S20000x32 : Shape := ⟨2, ![20000, 32]⟩
abbrev S10000x64 : Shape := ⟨2, ![10000, 64]⟩

abbrev nBuf : Space → Nat
  | .hbm => 204
  | .vmem => 54
  | .smem => 0
  | _ => 0

abbrev hbmTy0_0 (i : Nat) : BufTy := match i % 128 with
  | 0 => ⟨S50000x128, .f32⟩
  | 1 => ⟨S2x1600000, .i32⟩
  | 2 => ⟨S1600000x128, .f32⟩
  | 3 => ⟨S32x128, .f32⟩
  | 4 => ⟨S32, .f32⟩
  | 5 => ⟨S32, .f32⟩
  | 6 => ⟨S32, .f32⟩
  | 7 => ⟨S32, .f32⟩
  | 8 => ⟨S32, .f32⟩
  | 9 => ⟨S32x128, .f32⟩
  | 10 => ⟨S32, .f32⟩
  | 11 => ⟨S32, .f32⟩
  | 12 => ⟨S32, .f32⟩
  | 13 => ⟨S32, .f32⟩
  | 14 => ⟨S32, .f32⟩
  | 15 => ⟨S2x32x96, .f32⟩
  | 16 => ⟨S2x32, .f32⟩
  | 17 => ⟨S2x32x96, .f32⟩
  | 18 => ⟨S2x32, .f32⟩
  | 19 => ⟨S128x32, .f32⟩
  | 20 => ⟨S128, .f32⟩
  | 21 => ⟨S128, .f32⟩
  | 22 => ⟨S128, .f32⟩
  | 23 => ⟨S128, .f32⟩
  | 24 => ⟨S128, .f32⟩
  | 25 => ⟨S128x32, .f32⟩
  | 26 => ⟨S1x32, .f32⟩
  | 27 => ⟨S1x32, .f32⟩
  | 28 => ⟨S1x32, .f32⟩
  | 29 => ⟨S1x32, .f32⟩
  | 30 => ⟨S1x32, .f32⟩
  | 31 => ⟨S50000x32, .f32⟩
  | 32 => ⟨S128x32, .f32⟩
  | 33 => ⟨S1x32, .f32⟩
  | 34 => ⟨S1x32, .f32⟩
  | 35 => ⟨S1x32, .f32⟩
  | 36 => ⟨S1x32, .f32⟩
  | 37 => ⟨S1x32, .f32⟩
  | 38 => ⟨S1600000x32, .f32⟩
  | 39 => ⟨S1x1600000, .i32⟩
  | 40 => ⟨S1600000, .i32⟩
  | 41 => ⟨S1x1600000, .i32⟩
  | 42 => ⟨S1600000, .i32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1, .i32⟩
  | 52 => ⟨S_, .i32⟩
  | 53 => ⟨S1600000x1, .i32⟩
  | 54 => ⟨S1600000x1, .i1⟩
  | 55 => ⟨S1x1, .i32⟩
  | 56 => ⟨S1600000x1, .i32⟩
  | 57 => ⟨S1600000x1, .i1⟩
  | 58 => ⟨S1600000x1, .i1⟩
  | 59 => ⟨S_, .i1⟩
  | 60 => ⟨S1600000, .i1⟩
  | 61 => ⟨S1600000x32, .f32⟩
  | 62 => ⟨S1600000x32, .i1⟩
  | 63 => ⟨S_, .f32⟩
  | 64 => ⟨S1600000x32, .f32⟩
  | 65 => ⟨S1600000x32, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1, .i32⟩
  | 75 => ⟨S_, .i32⟩
  | 76 => ⟨S1600000x1, .i32⟩
  | 77 => ⟨S1600000x1, .i1⟩
  | 78 => ⟨S1x1, .i32⟩
  | 79 => ⟨S1600000x1, .i32⟩
  | 80 => ⟨S1600000x1, .i1⟩
  | 81 => ⟨S1600000x1, .i1⟩
  | 82 => ⟨S_, .i1⟩
  | 83 => ⟨S1600000, .i1⟩
  | 84 => ⟨S1600000x32, .f32⟩
  | 85 => ⟨S1600000x32, .i1⟩
  | 86 => ⟨S_, .f32⟩
  | 87 => ⟨S1600000x32, .f32⟩
  | 88 => ⟨S1600000x32, .f32⟩
  | 89 => ⟨S1x32x96, .f32⟩
  | 90 => ⟨S32x96, .f32⟩
  | 91 => ⟨S1x32, .f32⟩
  | 92 => ⟨S32, .f32⟩
  | 93 => ⟨S1x32x96, .f32⟩
  | 94 => ⟨S32x96, .f32⟩
  | 95 => ⟨S1x32, .f32⟩
  | 96 => ⟨S32, .f32⟩
  | 97 => ⟨S32x32, .f32⟩
  | 98 => ⟨S32x32, .f32⟩
  | 99 => ⟨S32x32, .f32⟩
  | 100 => ⟨S32x32, .f32⟩
  | 101 => ⟨S32x32, .f32⟩
  | 102 => ⟨S32x32, .f32⟩
  | 103 => ⟨S32x32, .f32⟩
  | 104 => ⟨S32x32, .f32⟩
  | 105 => ⟨S32x64, .f32⟩
  | 106 => ⟨S32x32, .f32⟩
  | 107 => ⟨S32x32, .f32⟩
  | 108 => ⟨S32x64, .f32⟩
  | 109 => ⟨S32x32, .f32⟩
  | 110 => ⟨S32x32, .f32⟩
  | 111 => ⟨S32x64, .f32⟩
  | 112 => ⟨S64, .f32⟩
  | 113 => ⟨S1x64, .f32⟩
  | 114 => ⟨S1600000x32, .f32⟩
  | 115 => ⟨S_, .f32⟩
  | 116 => ⟨S50000x32, .f32⟩
  | 117 => ⟨S1600000x1, .i32⟩
  | 118 => ⟨S50000x32, .f32⟩
  | 119 => ⟨S50000x32, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S50000x128, .f32⟩

abbrev hbmTy0_1 (i : Nat) : BufTy := match i % 128 with
  | 0 => ⟨S1, .i32⟩
  | 1 => ⟨S_, .i32⟩
  | 2 => ⟨S1600000x1, .i32⟩
  | 3 => ⟨S1600000x1, .i1⟩
  | 4 => ⟨S1x1, .i32⟩
  | 5 => ⟨S1600000x1, .i32⟩
  | 6 => ⟨S1600000x1, .i1⟩
  | 7 => ⟨S1600000x1, .i1⟩
  | 8 => ⟨S_, .i1⟩
  | 9 => ⟨S1600000, .i1⟩
  | 10 => ⟨S1600000x32, .f32⟩
  | 11 => ⟨S1600000x32, .i1⟩
  | 12 => ⟨S_, .f32⟩
  | 13 => ⟨S1600000x32, .f32⟩
  | 14 => ⟨S1600000x32, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1, .i32⟩
  | 24 => ⟨S_, .i32⟩
  | 25 => ⟨S1600000x1, .i32⟩
  | 26 => ⟨S1600000x1, .i1⟩
  | 27 => ⟨S1x1, .i32⟩
  | 28 => ⟨S1600000x1, .i32⟩
  | 29 => ⟨S1600000x1, .i1⟩
  | 30 => ⟨S1600000x1, .i1⟩
  | 31 => ⟨S_, .i1⟩
  | 32 => ⟨S1600000, .i1⟩
  | 33 => ⟨S1600000x32, .f32⟩
  | 34 => ⟨S1600000x32, .i1⟩
  | 35 => ⟨S_, .f32⟩
  | 36 => ⟨S1600000x32, .f32⟩
  | 37 => ⟨S1600000x32, .f32⟩
  | 38 => ⟨S1x32x96, .f32⟩
  | 39 => ⟨S32x96, .f32⟩
  | 40 => ⟨S1x32, .f32⟩
  | 41 => ⟨S32, .f32⟩
  | 42 => ⟨S1x32x96, .f32⟩
  | 43 => ⟨S32x96, .f32⟩
  | 44 => ⟨S1x32, .f32⟩
  | 45 => ⟨S32, .f32⟩
  | 46 => ⟨S32x32, .f32⟩
  | 47 => ⟨S32x32, .f32⟩
  | 48 => ⟨S32x32, .f32⟩
  | 49 => ⟨S32x32, .f32⟩
  | 50 => ⟨S32x32, .f32⟩
  | 51 => ⟨S32x32, .f32⟩
  | 52 => ⟨S32x32, .f32⟩
  | 53 => ⟨S32x32, .f32⟩
  | 54 => ⟨S32x64, .f32⟩
  | 55 => ⟨S32x32, .f32⟩
  | 56 => ⟨S32x32, .f32⟩
  | 57 => ⟨S32x64, .f32⟩
  | 58 => ⟨S32x32, .f32⟩
  | 59 => ⟨S32x32, .f32⟩
  | 60 => ⟨S32x64, .f32⟩
  | 61 => ⟨S64, .f32⟩
  | 62 => ⟨S1x64, .f32⟩
  | 63 => ⟨S1600000x32, .f32⟩
  | 64 => ⟨S_, .f32⟩
  | 65 => ⟨S50000x32, .f32⟩
  | 66 => ⟨S1600000x1, .i32⟩
  | 67 => ⟨S50000x32, .f32⟩
  | 68 => ⟨S50000x32, .f32⟩
  | 69 => ⟨S32x128, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S20000x128, .f32⟩
  | .local _ .vmem, ⟨11, _⟩ => ⟨S20000x128, .f32⟩
  | .local _ .vmem, ⟨12, _⟩ => ⟨S128x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S20000x32, .f32⟩
  | .local _ .vmem, ⟨19, _⟩ => ⟨S20000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S32x64, .f32⟩
  | .local _ .vmem, ⟨27, _⟩ => ⟨S32x64, .f32⟩
  | .local _ .vmem, ⟨28, _⟩ => ⟨S32x64, .f32⟩
  | .local _ .vmem, ⟨29, _⟩ => ⟨S1x64, .f32⟩
  | .local _ .vmem, ⟨30, _⟩ => ⟨S10000x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x32, .f32⟩
  | .local _ .vmem, ⟨38, _⟩ => ⟨S32x64, .f32⟩
  | .local _ .vmem, ⟨39, _⟩ => ⟨S32x64, .f32⟩
  | .local _ .vmem, ⟨40, _⟩ => ⟨S32x64, .f32⟩
  | .local _ .vmem, ⟨41, _⟩ => ⟨S1x64, .f32⟩
  | .local _ .vmem, ⟨42, _⟩ => ⟨S10000x32, .f32⟩
  | .local _ .vmem, ⟨43, _⟩ => ⟨S10000x32, .f32⟩
  | .local _ .vmem, ⟨44, _⟩ => ⟨S10000x32, .f32⟩
  | .local _ .vmem, ⟨45, _⟩ => ⟨S10000x32, .f32⟩
  | .local _ .vmem, ⟨46, _⟩ => ⟨S32x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S10000x128, .f32⟩
  | .local _ .vmem, ⟨53, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_call0_c : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_c_0 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_c_1 : Ref sig .tc := ⟨.hbm, 51, rfl⟩
abbrev main_call0_call0_c_2 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_call0_c_3 : Ref sig .tc := ⟨.hbm, 59, rfl⟩
abbrev main_call0_call0_v12 : Ref sig .tc := ⟨.hbm, 60, rfl⟩
abbrev main_call0_call0_v13 : Ref sig .tc := ⟨.hbm, 61, rfl⟩
abbrev main_call0_call0_v14 : Ref sig .tc := ⟨.hbm, 62, rfl⟩
abbrev main_call0_call0_cst : Ref sig .tc := ⟨.hbm, 63, rfl⟩
abbrev main_call0_call0_v15 : Ref sig .tc := ⟨.hbm, 64, rfl⟩
abbrev main_call0_v18 : Ref sig .tc := ⟨.hbm, 65, rfl⟩
abbrev main_call0_call1_c : Ref sig .tc := ⟨.hbm, 66, rfl⟩
abbrev main_call0_call1_v0 : Ref sig .tc := ⟨.hbm, 67, rfl⟩
abbrev main_call0_call1_v1 : Ref sig .tc := ⟨.hbm, 68, rfl⟩
abbrev main_call0_call1_c_0 : Ref sig .tc := ⟨.hbm, 69, rfl⟩
abbrev main_call0_call1_v2 : Ref sig .tc := ⟨.hbm, 70, rfl⟩
abbrev main_call0_call1_v3 : Ref sig .tc := ⟨.hbm, 71, rfl⟩
abbrev main_call0_call1_v4 : Ref sig .tc := ⟨.hbm, 72, rfl⟩
abbrev main_call0_call1_v5 : Ref sig .tc := ⟨.hbm, 73, rfl⟩
abbrev main_call0_call1_c_1 : Ref sig .tc := ⟨.hbm, 74, rfl⟩
abbrev main_call0_call1_c_2 : Ref sig .tc := ⟨.hbm, 75, rfl⟩
abbrev main_call0_call1_v6 : Ref sig .tc := ⟨.hbm, 76, rfl⟩
abbrev main_call0_call1_v7 : Ref sig .tc := ⟨.hbm, 77, rfl⟩
abbrev main_call0_call1_v8 : Ref sig .tc := ⟨.hbm, 78, rfl⟩
abbrev main_call0_call1_v9 : Ref sig .tc := ⟨.hbm, 79, rfl⟩
abbrev main_call0_call1_v10 : Ref sig .tc := ⟨.hbm, 80, rfl⟩
abbrev main_call0_call1_v11 : Ref sig .tc := ⟨.hbm, 81, rfl⟩
abbrev main_call0_call1_c_3 : Ref sig .tc := ⟨.hbm, 82, rfl⟩
abbrev main_call0_call1_v12 : Ref sig .tc := ⟨.hbm, 83, rfl⟩
abbrev main_call0_call1_v13 : Ref sig .tc := ⟨.hbm, 84, rfl⟩
abbrev main_call0_call1_v14 : Ref sig .tc := ⟨.hbm, 85, rfl⟩
abbrev main_call0_call1_cst : Ref sig .tc := ⟨.hbm, 86, rfl⟩
abbrev main_call0_call1_v15 : Ref sig .tc := ⟨.hbm, 87, rfl⟩
abbrev main_call0_v19 : Ref sig .tc := ⟨.hbm, 88, rfl⟩
abbrev main_call0_v20 : Ref sig .tc := ⟨.hbm, 89, rfl⟩
abbrev main_call0_v21 : Ref sig .tc := ⟨.hbm, 90, rfl⟩
abbrev main_call0_v22 : Ref sig .tc := ⟨.hbm, 91, rfl⟩
abbrev main_call0_v23 : Ref sig .tc := ⟨.hbm, 92, rfl⟩
abbrev main_call0_v24 : Ref sig .tc := ⟨.hbm, 93, rfl⟩
abbrev main_call0_v25 : Ref sig .tc := ⟨.hbm, 94, rfl⟩
abbrev main_call0_v26 : Ref sig .tc := ⟨.hbm, 95, rfl⟩
abbrev main_call0_v27 : Ref sig .tc := ⟨.hbm, 96, rfl⟩
abbrev main_call0_v28 : Ref sig .tc := ⟨.hbm, 97, rfl⟩
abbrev main_call0_v29 : Ref sig .tc := ⟨.hbm, 98, rfl⟩
abbrev main_call0_v30 : Ref sig .tc := ⟨.hbm, 99, rfl⟩
abbrev main_call0_v31 : Ref sig .tc := ⟨.hbm, 100, rfl⟩
abbrev main_call0_v32 : Ref sig .tc := ⟨.hbm, 101, rfl⟩
abbrev main_call0_v33 : Ref sig .tc := ⟨.hbm, 102, rfl⟩
abbrev main_call0_v34 : Ref sig .tc := ⟨.hbm, 103, rfl⟩
abbrev main_call0_v35 : Ref sig .tc := ⟨.hbm, 104, rfl⟩
abbrev main_call0_v36 : Ref sig .tc := ⟨.hbm, 105, rfl⟩
abbrev main_call0_v37 : Ref sig .tc := ⟨.hbm, 106, rfl⟩
abbrev main_call0_v38 : Ref sig .tc := ⟨.hbm, 107, rfl⟩
abbrev main_call0_v39 : Ref sig .tc := ⟨.hbm, 108, rfl⟩
abbrev main_call0_v40 : Ref sig .tc := ⟨.hbm, 109, rfl⟩
abbrev main_call0_v41 : Ref sig .tc := ⟨.hbm, 110, rfl⟩
abbrev main_call0_v42 : Ref sig .tc := ⟨.hbm, 111, rfl⟩
abbrev main_call0_v43 : Ref sig .tc := ⟨.hbm, 112, rfl⟩
abbrev main_call0_v44 : Ref sig .tc := ⟨.hbm, 113, rfl⟩
abbrev main_call0_v45 : Ref sig .tc := ⟨.hbm, 114, rfl⟩
abbrev main_call0_cst : Ref sig .tc := ⟨.hbm, 115, rfl⟩
abbrev main_call0_v46 : Ref sig .tc := ⟨.hbm, 116, rfl⟩
abbrev main_call0_v47 : Ref sig .tc := ⟨.hbm, 117, rfl⟩
abbrev main_call0_v48 : Ref sig .tc := ⟨.hbm, 118, rfl⟩
abbrev main_call0_v49 : Ref sig .tc := ⟨.hbm, 119, rfl⟩
abbrev main_call0_call2_c : Ref sig .tc := ⟨.hbm, 120, rfl⟩
abbrev main_call0_call2_v0 : Ref sig .tc := ⟨.hbm, 121, rfl⟩
abbrev main_call0_call2_v1 : Ref sig .tc := ⟨.hbm, 122, rfl⟩
abbrev main_call0_call2_c_0 : Ref sig .tc := ⟨.hbm, 123, rfl⟩
abbrev main_call0_call2_v2 : Ref sig .tc := ⟨.hbm, 124, rfl⟩
abbrev main_call0_call2_v3 : Ref sig .tc := ⟨.hbm, 125, rfl⟩
abbrev main_call0_call2_v4 : Ref sig .tc := ⟨.hbm, 126, rfl⟩
abbrev main_call0_call2_v5 : Ref sig .tc := ⟨.hbm, 127, rfl⟩
abbrev main_call0_call2_c_1 : Ref sig .tc := ⟨.hbm, 128, rfl⟩
abbrev main_call0_call2_c_2 : Ref sig .tc := ⟨.hbm, 129, rfl⟩
abbrev main_call0_call2_v6 : Ref sig .tc := ⟨.hbm, 130, rfl⟩
abbrev main_call0_call2_v7 : Ref sig .tc := ⟨.hbm, 131, rfl⟩
abbrev main_call0_call2_v8 : Ref sig .tc := ⟨.hbm, 132, rfl⟩
abbrev main_call0_call2_v9 : Ref sig .tc := ⟨.hbm, 133, rfl⟩
abbrev main_call0_call2_v10 : Ref sig .tc := ⟨.hbm, 134, rfl⟩
abbrev main_call0_call2_v11 : Ref sig .tc := ⟨.hbm, 135, rfl⟩
abbrev main_call0_call2_c_3 : Ref sig .tc := ⟨.hbm, 136, rfl⟩
abbrev main_call0_call2_v12 : Ref sig .tc := ⟨.hbm, 137, rfl⟩
abbrev main_call0_call2_v13 : Ref sig .tc := ⟨.hbm, 138, rfl⟩
abbrev main_call0_call2_v14 : Ref sig .tc := ⟨.hbm, 139, rfl⟩
abbrev main_call0_call2_cst : Ref sig .tc := ⟨.hbm, 140, rfl⟩
abbrev main_call0_call2_v15 : Ref sig .tc := ⟨.hbm, 141, rfl⟩
abbrev main_call0_v50 : Ref sig .tc := ⟨.hbm, 142, rfl⟩
abbrev main_call0_call3_c : Ref sig .tc := ⟨.hbm, 143, rfl⟩
abbrev main_call0_call3_v0 : Ref sig .tc := ⟨.hbm, 144, rfl⟩
abbrev main_call0_call3_v1 : Ref sig .tc := ⟨.hbm, 145, rfl⟩
abbrev main_call0_call3_c_0 : Ref sig .tc := ⟨.hbm, 146, rfl⟩
abbrev main_call0_call3_v2 : Ref sig .tc := ⟨.hbm, 147, rfl⟩
abbrev main_call0_call3_v3 : Ref sig .tc := ⟨.hbm, 148, rfl⟩
abbrev main_call0_call3_v4 : Ref sig .tc := ⟨.hbm, 149, rfl⟩
abbrev main_call0_call3_v5 : Ref sig .tc := ⟨.hbm, 150, rfl⟩
abbrev main_call0_call3_c_1 : Ref sig .tc := ⟨.hbm, 151, rfl⟩
abbrev main_call0_call3_c_2 : Ref sig .tc := ⟨.hbm, 152, rfl⟩
abbrev main_call0_call3_v6 : Ref sig .tc := ⟨.hbm, 153, rfl⟩
abbrev main_call0_call3_v7 : Ref sig .tc := ⟨.hbm, 154, rfl⟩
abbrev main_call0_call3_v8 : Ref sig .tc := ⟨.hbm, 155, rfl⟩
abbrev main_call0_call3_v9 : Ref sig .tc := ⟨.hbm, 156, rfl⟩
abbrev main_call0_call3_v10 : Ref sig .tc := ⟨.hbm, 157, rfl⟩
abbrev main_call0_call3_v11 : Ref sig .tc := ⟨.hbm, 158, rfl⟩
abbrev main_call0_call3_c_3 : Ref sig .tc := ⟨.hbm, 159, rfl⟩
abbrev main_call0_call3_v12 : Ref sig .tc := ⟨.hbm, 160, rfl⟩
abbrev main_call0_call3_v13 : Ref sig .tc := ⟨.hbm, 161, rfl⟩
abbrev main_call0_call3_v14 : Ref sig .tc := ⟨.hbm, 162, rfl⟩
abbrev main_call0_call3_cst : Ref sig .tc := ⟨.hbm, 163, rfl⟩
abbrev main_call0_call3_v15 : Ref sig .tc := ⟨.hbm, 164, rfl⟩
abbrev main_call0_v51 : Ref sig .tc := ⟨.hbm, 165, rfl⟩
abbrev main_call0_v52 : Ref sig .tc := ⟨.hbm, 166, rfl⟩
abbrev main_call0_v53 : Ref sig .tc := ⟨.hbm, 167, rfl⟩
abbrev main_call0_v54 : Ref sig .tc := ⟨.hbm, 168, rfl⟩
abbrev main_call0_v55 : Ref sig .tc := ⟨.hbm, 169, rfl⟩
abbrev main_call0_v56 : Ref sig .tc := ⟨.hbm, 170, rfl⟩
abbrev main_call0_v57 : Ref sig .tc := ⟨.hbm, 171, rfl⟩
abbrev main_call0_v58 : Ref sig .tc := ⟨.hbm, 172, rfl⟩
abbrev main_call0_v59 : Ref sig .tc := ⟨.hbm, 173, rfl⟩
abbrev main_call0_v60 : Ref sig .tc := ⟨.hbm, 174, rfl⟩
abbrev main_call0_v61 : Ref sig .tc := ⟨.hbm, 175, rfl⟩
abbrev main_call0_v62 : Ref sig .tc := ⟨.hbm, 176, rfl⟩
abbrev main_call0_v63 : Ref sig .tc := ⟨.hbm, 177, rfl⟩
abbrev main_call0_v64 : Ref sig .tc := ⟨.hbm, 178, rfl⟩
abbrev main_call0_v65 : Ref sig .tc := ⟨.hbm, 179, rfl⟩
abbrev main_call0_v66 : Ref sig .tc := ⟨.hbm, 180, rfl⟩
abbrev main_call0_v67 : Ref sig .tc := ⟨.hbm, 181, rfl⟩
abbrev main_call0_v68 : Ref sig .tc := ⟨.hbm, 182, rfl⟩
abbrev main_call0_v69 : Ref sig .tc := ⟨.hbm, 183, rfl⟩
abbrev main_call0_v70 : Ref sig .tc := ⟨.hbm, 184, rfl⟩
abbrev main_call0_v71 : Ref sig .tc := ⟨.hbm, 185, rfl⟩
abbrev main_call0_v72 : Ref sig .tc := ⟨.hbm, 186, rfl⟩
abbrev main_call0_v73 : Ref sig .tc := ⟨.hbm, 187, rfl⟩
abbrev main_call0_v74 : Ref sig .tc := ⟨.hbm, 188, rfl⟩
abbrev main_call0_v75 : Ref sig .tc := ⟨.hbm, 189, rfl⟩
abbrev main_call0_v76 : Ref sig .tc := ⟨.hbm, 190, rfl⟩
abbrev main_call0_v77 : Ref sig .tc := ⟨.hbm, 191, rfl⟩
abbrev main_call0_cst_0 : Ref sig .tc := ⟨.hbm, 192, rfl⟩
abbrev main_call0_v78 : Ref sig .tc := ⟨.hbm, 193, rfl⟩
abbrev main_call0_v79 : Ref sig .tc := ⟨.hbm, 194, rfl⟩
abbrev main_call0_v80 : Ref sig .tc := ⟨.hbm, 195, rfl⟩
abbrev main_call0_v81 : Ref sig .tc := ⟨.hbm, 196, rfl⟩
abbrev main_call0_v82 : Ref sig .tc := ⟨.hbm, 197, rfl⟩
abbrev main_call0_v83 : Ref sig .tc := ⟨.hbm, 198, rfl⟩
abbrev main_call0_v84 : Ref sig .tc := ⟨.hbm, 199, rfl⟩
abbrev main_call0_v85 : Ref sig .tc := ⟨.hbm, 200, rfl⟩
abbrev main_call0_v86 : Ref sig .tc := ⟨.hbm, 201, rfl⟩
abbrev main_call0_v87 : Ref sig .tc := ⟨.hbm, 202, rfl⟩
abbrev main_v0 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg7_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem7_1 : DmaSem sig := 53

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S20000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S32x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x32 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  transposes_S32x128_S128x32_1_0 : S32x128.Transposes [1, 0] S128x32
  shapeCasts_S32_S1x32 : S32.ShapeCasts S1x32
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  slices_S2x32x96_S1x32x96_0_0_0 : S2x32x96.Slices ![0, 0, 0] S1x32x96
  shapeCasts_S1x32x96_S32x96 : S1x32x96.ShapeCasts S32x96
  slices_S2x32_S1x32_0_0 : S2x32.Slices ![0, 0] S1x32
  shapeCasts_S1x32_S32 : S1x32.ShapeCasts S32
  slices_S32x96_S32x32_0_0 : S32x96.Slices ![0, 0] S32x32
  slices_S32x96_S32x32_0_32 : S32x96.Slices ![0, 32] S32x32
  slices_S32x96_S32x32_0_64 : S32x96.Slices ![0, 64] S32x32
  transposes_S32x32_S32x32_1_0 : S32x32.Transposes [1, 0] S32x32
  concatenates_S32x32_S32x32_S32x64_d1 : Shape.Concatenates [S32x32, S32x32] S32x64 1
  concatenates_S32_S32_S64_d0 : Shape.Concatenates [S32, S32] S64 0
  shapeCasts_S64_S1x64 : S64.ShapeCasts S1x64
  bcast_S_S50000x32 : S_.BroadcastsInDim S50000x32 (![] : Fin 0 → Fin S50000x32.rank)
  slices_S2x32x96_S1x32x96_1_0_0 : S2x32x96.Slices ![1, 0, 0] S1x32x96
  slices_S2x32_S1x32_1_0 : S2x32.Slices ![1, 0] S1x32
  transposes_S128x32_S32x128_1_0 : S128x32.Transposes [1, 0] S32x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  inb_S20000x128_S20000x128_0_0 : ∀ a, (![0, 0] : Fin 2 → Nat) a + S20000x128.size a ≤ S20000x128.size a
  h_S20000x128 : 0 < S20000x128.numel
  broadcasts_S1x32_S20000x32 : S1x32.Broadcasts S20000x32
  inb_S20000x32_S20000x32_0_0 : ∀ a, (![0, 0] : Fin 2 → Nat) a + S20000x32.size a ≤ S20000x32.size a
  h_S20000x32 : 0 < S20000x32.numel
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S10000x64_o0_0_S10000x32 : S10000x64.Slices ![0, 0] S10000x32
  slices_S10000x64_o0_32_S10000x32 : S10000x64.Slices ![0, 32] S10000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S10000x128_S128x32_S10000x32_1_0_0_1_n_n_wf : DotDims.WF S10000x128 S128x32 S10000x32 [1] [0] [0] [1] [] []
  dot_S20000x128_S128x32_S20000x32_1_0_0_1_n_n_wf : DotDims.WF S20000x128 S128x32 S20000x32 [1] [0] [0] [1] [] []
  dot_S10000x32_S32x64_S10000x64_1_0_0_1_n_n_wf : DotDims.WF S10000x32 S32x64 S10000x64 [1] [0] [0] [1] [] []
  dot_S10000x32_S32x128_S10000x128_1_0_0_1_n_n_wf : DotDims.WF S10000x32 S32x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x32.size a ≤ S50000x32.size a
  hwx0_7 : ∀ i : grid0.Coords, EltTy.bits .f32 = 32 ∨ (Rect.block (s := S50000x32) S10000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S1600000x128.size a
  hwx1_0 : ∀ i : grid1.Coords, EltTy.bits .f32 = 32 ∨ (Rect.block (s := S1600000x128) S20000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S20000x32.size a ≤ S1600000x32.size a
  hwx1_7 : ∀ i : grid1.Coords, EltTy.bits .f32 = 32 ∨ (Rect.block (s := S1600000x32) S20000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S1600000x32.size a
  hwx2_0 : ∀ i : grid2.Coords, EltTy.bits .f32 = 32 ∨ (Rect.block (s := S1600000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S1600000x32.size a
  hwx2_1 : ∀ i : grid2.Coords, EltTy.bits .f32 = 32 ∨ (Rect.block (s := S1600000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S1600000x32.size a
  hwx2_2 : ∀ i : grid2.Coords, EltTy.bits .f32 = 32 ∨ (Rect.block (s := S1600000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x64.size a ≤ S32x64.size a
  hwx2_4 : ∀ i : grid2.Coords, EltTy.bits .f32 = 32 ∨ (Rect.block (s := S32x64) S32x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x64.size a ≤ S32x64.size a
  hwx2_5 : ∀ i : grid2.Coords, EltTy.bits .f32 = 32 ∨ (Rect.block (s := S32x64) S32x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x32.size a ≤ S1600000x32.size a
  hwx2_7 : ∀ i : grid2.Coords, EltTy.bits .f32 = 32 ∨ (Rect.block (s := S1600000x32) S10000x32.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S1600000x32.size a
  hwx3_0 : ∀ i : grid3.Coords, EltTy.bits .f32 = 32 ∨ (Rect.block (s := S1600000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S1600000x32.size a
  hwx3_1 : ∀ i : grid3.Coords, EltTy.bits .f32 = 32 ∨ (Rect.block (s := S1600000x32) S10000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S1600000x32.size a
  hwx3_2 : ∀ i : grid3.Coords, EltTy.bits .f32 = 32 ∨ (Rect.block (s := S1600000x32) S10000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x64.size a ≤ S32x64.size a
  hwx3_3 : ∀ i : grid3.Coords, EltTy.bits .f32 = 32 ∨ (Rect.block (s := S32x64) S32x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x64.size a ≤ S32x64.size a
  hwx3_4 : ∀ i : grid3.Coords, EltTy.bits .f32 = 32 ∨ (Rect.block (s := S32x64) S32x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x64.size a ≤ S32x64.size a
  hwx3_5 : ∀ i : grid3.Coords, EltTy.bits .f32 = 32 ∨ (Rect.block (s := S32x64) S32x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x32.size a ≤ S1600000x32.size a
  hwx3_7 : ∀ i : grid3.Coords, EltTy.bits .f32 = 32 ∨ (Rect.block (s := S1600000x32) S10000x32.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S50000x32.size a
  hwx4_0 : ∀ i : grid4.Coords, EltTy.bits .f32 = 32 ∨ (Rect.block (s := S50000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x128.size a ≤ S32x128.size a
  hwx4_1 : ∀ i : grid4.Coords, EltTy.bits .f32 = 32 ∨ (Rect.block (s := S32x128) S32x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x128.size a ≤ S50000x128.size a
  hwx4_7 : ∀ i : grid4.Coords, EltTy.bits .f32 = 32 ∨ (Rect.block (s := S50000x128) S10000x128.size (cc4_transform_7 i) (hinb4_7 i)).WholeWords (EltTy.packing .f32)

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S20000x128_S128x32_S20000x32_1_0_0_1_n_n : DotDims S20000x128 S128x32 S20000x32 where
  lhsContracting := [1]
  rhsContracting := [0]
  lhsNonContracting := [0]
  rhsNonContracting := [1]
  lhsBatch := []
  rhsBatch := []
  wf := dot_S20000x128_S128x32_S20000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6) S10000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v7) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v8) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v9) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v10) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v11) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v12) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v13) S20000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v18) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v19) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v13) S10000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v36) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v39) S32x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v42) S32x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v44) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v45) S10000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_call0_v50) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v51) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v13) S10000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v68) S32x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v71) S32x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v74) S32x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v76) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v77) S10000x32.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_call0_v81) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v82) S32x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v83) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v84) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v85) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v86) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v87) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v0) S10000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x128 : Shape := ⟨2, ![1600000, 128]⟩
abbrev S32x128 : Shape := ⟨2, ![32, 128]⟩
abbrev S32 : Shape := ⟨1, ![32]⟩
abbrev S2x32x96 : Shape := ⟨3, ![2, 32, 96]⟩
abbrev S2x32 : Shape := ⟨2, ![2, 32]⟩
abbrev S128x32 : Shape := ⟨2, ![128, 32]⟩
abbrev S128 : Shape := ⟨1, ![128]⟩
abbrev S50000x32 : Shape := ⟨2, ![50000, 32]⟩
abbrev S1x32 : Shape := ⟨2, ![1, 32]⟩
abbrev S_ : Shape := ⟨0, ![]⟩
abbrev S1600000x32 : Shape := ⟨2, ![1600000, 32]⟩
abbrev S1x1600000 : Shape := ⟨2, ![1, 1600000]⟩
abbrev S1600000 : Shape := ⟨1, ![1600000]⟩
abbrev S1600000x1 : Shape := ⟨2, ![1600000, 1]⟩
abbrev S1600000x96 : Shape := ⟨2, ![1600000, 96]⟩
abbrev S1x32x96 : Shape := ⟨3, ![1, 32, 96]⟩
abbrev S32x96 : Shape := ⟨2, ![32, 96]⟩
abbrev S96x32 : Shape := ⟨2, ![96, 32]⟩
abbrev S1x128 : Shape := ⟨2, ![1, 128]⟩

abbrev nBuf : Space → Nat
  | .hbm => 237
  | .vmem => 0
  | .smem => 0
  | _ => 0

abbrev hbmTy0_0 (i : Nat) : BufTy := match i % 128 with
  | 0 => ⟨S50000x128, .f32⟩
  | 1 => ⟨S2x1600000, .i32⟩
  | 2 => ⟨S1600000x128, .f32⟩
  | 3 => ⟨S32x128, .f32⟩
  | 4 => ⟨S32, .f32⟩
  | 5 => ⟨S32, .f32⟩
  | 6 => ⟨S32, .f32⟩
  | 7 => ⟨S32, .f32⟩
  | 8 => ⟨S32, .f32⟩
  | 9 => ⟨S32x128, .f32⟩
  | 10 => ⟨S32, .f32⟩
  | 11 => ⟨S32, .f32⟩
  | 12 => ⟨S32, .f32⟩
  | 13 => ⟨S32, .f32⟩
  | 14 => ⟨S32, .f32⟩
  | 15 => ⟨S2x32x96, .f32⟩
  | 16 => ⟨S2x32, .f32⟩
  | 17 => ⟨S2x32x96, .f32⟩
  | 18 => ⟨S2x32, .f32⟩
  | 19 => ⟨S128x32, .f32⟩
  | 20 => ⟨S128, .f32⟩
  | 21 => ⟨S128, .f32⟩
  | 22 => ⟨S128, .f32⟩
  | 23 => ⟨S128, .f32⟩
  | 24 => ⟨S128, .f32⟩
  | 25 => ⟨S128x32, .f32⟩
  | 26 => ⟨S50000x32, .f32⟩
  | 27 => ⟨S1x32, .f32⟩
  | 28 => ⟨S50000x32, .f32⟩
  | 29 => ⟨S50000x32, .f32⟩
  | 30 => ⟨S1x32, .f32⟩
  | 31 => ⟨S50000x32, .f32⟩
  | 32 => ⟨S50000x32, .f32⟩
  | 33 => ⟨S_, .f32⟩
  | 34 => ⟨S32, .f32⟩
  | 35 => ⟨S32, .f32⟩
  | 36 => ⟨S32, .f32⟩
  | 37 => ⟨S32, .f32⟩
  | 38 => ⟨S1x32, .f32⟩
  | 39 => ⟨S50000x32, .f32⟩
  | 40 => ⟨S50000x32, .f32⟩
  | 41 => ⟨S1x32, .f32⟩
  | 42 => ⟨S50000x32, .f32⟩
  | 43 => ⟨S50000x32, .f32⟩
  | 44 => ⟨S_, .f32⟩
  | 45 => ⟨S50000x32, .f32⟩
  | 46 => ⟨S50000x32, .i1⟩
  | 47 => ⟨S_, .f32⟩
  | 48 => ⟨S50000x32, .f32⟩
  | 49 => ⟨S50000x32, .f32⟩
  | 50 => ⟨S50000x32, .f32⟩
  | 51 => ⟨S128x32, .f32⟩
  | 52 => ⟨S1600000x32, .f32⟩
  | 53 => ⟨S1x32, .f32⟩
  | 54 => ⟨S1600000x32, .f32⟩
  | 55 => ⟨S1600000x32, .f32⟩
  | 56 => ⟨S1x32, .f32⟩
  | 57 => ⟨S1600000x32, .f32⟩
  | 58 => ⟨S1600000x32, .f32⟩
  | 59 => ⟨S_, .f32⟩
  | 60 => ⟨S32, .f32⟩
  | 61 => ⟨S32, .f32⟩
  | 62 => ⟨S32, .f32⟩
  | 63 => ⟨S32, .f32⟩
  | 64 => ⟨S1x32, .f32⟩
  | 65 => ⟨S1600000x32, .f32⟩
  | 66 => ⟨S1600000x32, .f32⟩
  | 67 => ⟨S1x32, .f32⟩
  | 68 => ⟨S1600000x32, .f32⟩
  | 69 => ⟨S1600000x32, .f32⟩
  | 70 => ⟨S_, .f32⟩
  | 71 => ⟨S1600000x32, .f32⟩
  | 72 => ⟨S1600000x32, .i1⟩
  | 73 => ⟨S_, .f32⟩
  | 74 => ⟨S1600000x32, .f32⟩
  | 75 => ⟨S1600000x32, .f32⟩
  | 76 => ⟨S1600000x32, .f32⟩
  | 77 => ⟨S1x1600000, .i32⟩
  | 78 => ⟨S1600000, .i32⟩
  | 79 => ⟨S1x1600000, .i32⟩
  | 80 => ⟨S1600000, .i32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x32, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x32, .f32⟩
  | 99 => ⟨S1600000x96, .f32⟩
  | 100 => ⟨S1x32x96, .f32⟩
  | 101 => ⟨S32x96, .f32⟩
  | 102 => ⟨S96x32, .f32⟩
  | 103 => ⟨S1600000x32, .f32⟩
  | 104 => ⟨S1x32, .f32⟩
  | 105 => ⟨S32, .f32⟩
  | 106 => ⟨S1x32, .f32⟩
  | 107 => ⟨S1600000x32, .f32⟩
  | 108 => ⟨S1600000x32, .f32⟩
  | 109 => ⟨S1600000x32, .f32⟩
  | 110 => ⟨S1600000x32, .f32⟩
  | 111 => ⟨S_, .f32⟩
  | 112 => ⟨S1600000x32, .f32⟩
  | 113 => ⟨S1600000x32, .f32⟩
  | 114 => ⟨S_, .f32⟩
  | 115 => ⟨S1600000x32, .f32⟩
  | 116 => ⟨S1600000x32, .f32⟩
  | 117 => ⟨S1x32x96, .f32⟩
  | 118 => ⟨S32x96, .f32⟩
  | 119 => ⟨S96x32, .f32⟩
  | 120 => ⟨S1600000x32, .f32⟩
  | 121 => ⟨S1x32, .f32⟩
  | 122 => ⟨S32, .f32⟩
  | 123 => ⟨S1x32, .f32⟩
  | 124 => ⟨S1600000x32, .f32⟩
  | 125 => ⟨S1600000x32, .f32⟩
  | 126 => ⟨S_, .f32⟩
  | 127 => ⟨S1600000x32, .f32⟩
  | _ => ⟨S50000x128, .f32⟩

abbrev hbmTy0_1 (i : Nat) : BufTy := match i % 128 with
  | 0 => ⟨S1600000x32, .f32⟩
  | 1 => ⟨S1600000x32, .f32⟩
  | 2 => ⟨S1600000x32, .f32⟩
  | 3 => ⟨S1600000x32, .i1⟩
  | 4 => ⟨S1600000x32, .f32⟩
  | 5 => ⟨S1600000x32, .f32⟩
  | 6 => ⟨S1600000x32, .f32⟩
  | 7 => ⟨S1600000x32, .f32⟩
  | 8 => ⟨S1600000x32, .f32⟩
  | 9 => ⟨S1600000x32, .f32⟩
  | 10 => ⟨S1600000x32, .f32⟩
  | 11 => ⟨S1600000x32, .f32⟩
  | 12 => ⟨S1600000x32, .f32⟩
  | 13 => ⟨S_, .f32⟩
  | 14 => ⟨S50000x32, .f32⟩
  | 15 => ⟨S1600000x1, .i32⟩
  | 16 => ⟨S50000x32, .f32⟩
  | 17 => ⟨S50000x32, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x32, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x32, .f32⟩
  | 36 => ⟨S1600000x96, .f32⟩
  | 37 => ⟨S1x32x96, .f32⟩
  | 38 => ⟨S32x96, .f32⟩
  | 39 => ⟨S96x32, .f32⟩
  | 40 => ⟨S1600000x32, .f32⟩
  | 41 => ⟨S1x32, .f32⟩
  | 42 => ⟨S32, .f32⟩
  | 43 => ⟨S1x32, .f32⟩
  | 44 => ⟨S1600000x32, .f32⟩
  | 45 => ⟨S1600000x32, .f32⟩
  | 46 => ⟨S1600000x32, .f32⟩
  | 47 => ⟨S1600000x32, .f32⟩
  | 48 => ⟨S_, .f32⟩
  | 49 => ⟨S1600000x32, .f32⟩
  | 50 => ⟨S1600000x32, .f32⟩
  | 51 => ⟨S_, .f32⟩
  | 52 => ⟨S1600000x32, .f32⟩
  | 53 => ⟨S1600000x32, .f32⟩
  | 54 => ⟨S1x32x96, .f32⟩
  | 55 => ⟨S32x96, .f32⟩
  | 56 => ⟨S96x32, .f32⟩
  | 57 => ⟨S1600000x32, .f32⟩
  | 58 => ⟨S1x32, .f32⟩
  | 59 => ⟨S32, .f32⟩
  | 60 => ⟨S1x32, .f32⟩
  | 61 => ⟨S1600000x32, .f32⟩
  | 62 => ⟨S1600000x32, .f32⟩
  | 63 => ⟨S_, .f32⟩
  | 64 => ⟨S1600000x32, .f32⟩
  | 65 => ⟨S1600000x32, .f32⟩
  | 66 => ⟨S1600000x32, .f32⟩
  | 67 => ⟨S1600000x32, .f32⟩
  | 68 => ⟨S1600000x32, .i1⟩
  | 69 => ⟨S1600000x32, .f32⟩
  | 70 => ⟨S1600000x32, .f32⟩
  | 71 => ⟨S1600000x32, .f32⟩
  | 72 => ⟨S1600000x32, .f32⟩
  | 73 => ⟨S1600000x32, .f32⟩
  | 74 => ⟨S1600000x32, .f32⟩
  | 75 => ⟨S1600000x32, .f32⟩
  | 76 => ⟨S1600000x32, .f32⟩
  | 77 => ⟨S1600000x32, .f32⟩
  | 78 => ⟨S_, .f32⟩
  | 79 => ⟨S50000x32, .f32⟩
  | 80 => ⟨S1600000x1, .i32⟩
  | 81 => ⟨S50000x32, .f32⟩
  | 82 => ⟨S50000x32, .f32⟩
  | 83 => ⟨S32x128, .f32⟩
  | 84 => ⟨S50000x128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .i1⟩
  | 105 => ⟨S_, .f32⟩
  | 106 => ⟨S50000x128, .f32⟩
  | 107 => ⟨S50000x128, .f32⟩
  | 108 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_0 : Ref sig .tc := ⟨.hbm, 44, rfl⟩
abbrev main_v18 : Ref sig .tc := ⟨.hbm, 45, rfl⟩
abbrev main_v19 : Ref sig .tc := ⟨.hbm, 46, rfl⟩
abbrev main_cst_1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_2 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_3 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c : Ref sig .tc := ⟨.hbm, 81, rfl⟩
abbrev main_v50 : Ref sig .tc := ⟨.hbm, 82, rfl⟩
abbrev main_v51 : Ref sig .tc := ⟨.hbm, 83, rfl⟩
abbrev main_c_5 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_6 : Ref sig .tc := ⟨.hbm, 90, rfl⟩
abbrev main_v57 : Ref sig .tc := ⟨.hbm, 91, rfl⟩
abbrev main_v58 : Ref sig .tc := ⟨.hbm, 92, rfl⟩
abbrev main_c_7 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_8 : Ref sig .tc := ⟨.hbm, 111, rfl⟩
abbrev main_v76 : Ref sig .tc := ⟨.hbm, 112, rfl⟩
abbrev main_v77 : Ref sig .tc := ⟨.hbm, 113, rfl⟩
abbrev main_cst_9 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_v6 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_v89 : Ref sig .tc := ⟨.hbm, 139, rfl⟩
abbrev main_v90 : Ref sig .tc := ⟨.hbm, 140, rfl⟩
abbrev main_cst_10 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_11 : Ref sig .tc := ⟨.hbm, 146, rfl⟩
abbrev main_v95 : Ref sig .tc := ⟨.hbm, 147, rfl⟩
abbrev main_v96 : Ref sig .tc := ⟨.hbm, 148, rfl⟩
abbrev main_c_12 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_c_13 : Ref sig .tc := ⟨.hbm, 155, rfl⟩
abbrev main_v102 : Ref sig .tc := ⟨.hbm, 156, rfl⟩
abbrev main_v103 : Ref sig .tc := ⟨.hbm, 157, rfl⟩
abbrev main_c_14 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_15 : Ref sig .tc := ⟨.hbm, 176, rfl⟩
abbrev main_v121 : Ref sig .tc := ⟨.hbm, 177, rfl⟩
abbrev main_v122 : Ref sig .tc := ⟨.hbm, 178, rfl⟩
abbrev main_cst_16 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_call3_cst : Ref sig .tc := ⟨.hbm, 191, rfl⟩
abbrev main_call3_v0 : Ref sig .tc := ⟨.hbm, 192, rfl⟩
abbrev main_call3_v1 : Ref sig .tc := ⟨.hbm, 193, rfl⟩
abbrev main_call3_v2 : Ref sig .tc := ⟨.hbm, 194, rfl⟩
abbrev main_call3_v3 : Ref sig .tc := ⟨.hbm, 195, rfl⟩
abbrev main_call3_v4 : Ref sig .tc := ⟨.hbm, 196, rfl⟩
abbrev main_call3_v5 : Ref sig .tc := ⟨.hbm, 197, rfl⟩
abbrev main_call3_v6 : Ref sig .tc := ⟨.hbm, 198, rfl⟩
abbrev main_call3_v7 : Ref sig .tc := ⟨.hbm, 199, rfl⟩
abbrev main_call3_v8 : Ref sig .tc := ⟨.hbm, 200, rfl⟩
abbrev main_call3_v9 : Ref sig .tc := ⟨.hbm, 201, rfl⟩
abbrev main_call3_v10 : Ref sig .tc := ⟨.hbm, 202, rfl⟩
abbrev main_call3_v11 : Ref sig .tc := ⟨.hbm, 203, rfl⟩
abbrev main_v134 : Ref sig .tc := ⟨.hbm, 204, rfl⟩
abbrev main_v135 : Ref sig .tc := ⟨.hbm, 205, rfl⟩
abbrev main_cst_17 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_18 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_cst_19 : Ref sig .tc := ⟨.hbm, 230, rfl⟩
abbrev main_v158 : Ref sig .tc := ⟨.hbm, 231, rfl⟩
abbrev main_v159 : Ref sig .tc := ⟨.hbm, 232, rfl⟩
abbrev main_cst_20 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩

abbrev nD : Nat := 1
abbrev τ : Topo := Topo.v7x

variable {F : FTy → Type} [FloatOps F]

class Facts₀ : Prop where
  transposes_S32x128_S128x32_1_0 : S32x128.Transposes [1, 0] S128x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S32 : S_.BroadcastsInDim S32 (![] : Fin 0 → Fin S32.rank)
  bcast_S_S50000x32 : S_.BroadcastsInDim S50000x32 (![] : Fin 0 → Fin S50000x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x32_S1600000x96_d1 : Shape.Concatenates [S1600000x32, S1600000x32, S1600000x32] S1600000x96 1
  slices_S2x32x96_S1x32x96_0_0_0 : S2x32x96.Slices ![0, 0, 0] S1x32x96
  shapeCasts_S1x32x96_S32x96 : S1x32x96.ShapeCasts S32x96
  transposes_S32x96_S96x32_1_0 : S32x96.Transposes [1, 0] S96x32
  slices_S2x32_S1x32_0_0 : S2x32.Slices ![0, 0] S1x32
  shapeCasts_S1x32_S32 : S1x32.ShapeCasts S32
  slices_S2x32x96_S1x32x96_1_0_0 : S2x32x96.Slices ![1, 0, 0] S1x32x96
  slices_S2x32_S1x32_1_0 : S2x32.Slices ![1, 0] S1x32
  transposes_S128x32_S32x128_1_0 : S128x32.Transposes [1, 0] S32x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S50000x128 : S_.BroadcastsInDim S50000x128 (![] : Fin 0 → Fin S50000x128.rank)
  dot_S50000x128_S128x32_S50000x32_1_0_0_1_n_n_wf : DotDims.WF S50000x128 S128x32 S50000x32 [1] [0] [0] [1] [] []
  dot_S1600000x128_S128x32_S1600000x32_1_0_0_1_n_n_wf : DotDims.WF S1600000x128 S128x32 S1600000x32 [1] [0] [0] [1] [] []
  gather_S50000x32_S1600000x1_S1600000x32_1_0_n_n_0_1_132_wf : GatherDims.WF S50000x32 S1600000x1 S1600000x32 [1] [0] [] [0] [] 1 ![1, 32]
  dot_S1600000x96_S96x32_S1600000x32_1_0_0_1_n_n_wf : DotDims.WF S1600000x96 S96x32 S1600000x32 [1] [0] [0] [1] [] []
  scatter_S50000x32_S1600000x1_S1600000x32_1_0_0_1_wf : ScatterDims.WF S50000x32 S1600000x1 S1600000x32 [1] [0] [0] 1
  dot_S50000x32_S32x128_S50000x128_1_0_0_1_n_n_wf : DotDims.WF S50000x32 S32x128 S50000x128 [1] [0] [0] [1] [] []

variable [Facts₀]

def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S1600000x128_S128x32_S1600000x32_1_0_0_1_n_n : DotDims S1600000x128 S128x32 S1600000x32 where
  lhsContracting := [1]
  rhsContracting := [0]
  lhsNonContracting := [0]
  rhsNonContracting := [1]
  lhsBatch := []
  rhsBatch := []
  wf := dot_S1600000x128_S128x32_S1600000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x96_S96x32_S1600000x32_1_0_0_1_n_n : DotDims S1600000x96 S96x32 S1600000x32 where
  lhsContracting := [1]
  rhsContracting := [0]
  lhsNonContracting := [0]
  rhsNonContracting := [1]
  lhsBatch := []
  rhsBatch := []
  wf := dot_S1600000x96_S96x32_S1600000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (a b : Nat) := (⟨2, ![a, b]⟩ : Shape).Idx → EReal
abbrev Vct (a : Nat) := (⟨1, ![a]⟩ : Shape).Idx → EReal
abbrev Ten3 (a b c : Nat) := (⟨3, ![a, b, c]⟩ : Shape).Idx → EReal

def eps : EReal := Ideal.ofBits .f32 0x3727C5AC#32
def slope : EReal := Ideal.ofBits .f32 0x3DCCCCCD#32

def lrelu (z : EReal) : EReal := if 0 < z then z else slope * z

def scaleDiv (g v : EReal) : EReal := Ideal.div g (Ideal.sqrt (v + eps))
def scaleMul (g v : EReal) : EReal := g * Ideal.rsqrt (v + eps)

def affineWith (s : EReal) (dot b mu be : EReal) : EReal := lrelu ((dot + b - mu) * s + be)

def affDiv {N D O : Nat} (x : Mat N D) (w : Mat O D) (b g be mu v : Vct O) (p : Fin N) (q : Fin O) : EReal :=
  affineWith (scaleDiv (g (ix1 q)) (v (ix1 q))) (∑ k : Fin D, x (ix2 p k) * w (ix2 q k)) (b (ix1 q)) (mu (ix1 q)) (be (ix1 q))

def affMul {N D O : Nat} (x : Mat N D) (w : Mat O D) (b g be mu v : Vct O) (p : Fin N) (q : Fin O) : EReal :=
  affineWith (scaleMul (g (ix1 q)) (v (ix1 q))) (∑ k : Fin D, x (ix2 p k) * w (ix2 q k)) (b (ix1 q)) (mu (ix1 q)) (be (ix1 q))

def softplus (z : EReal) : EReal := max z 0 + Ideal.log1p (Ideal.exp (-(max (z - 0) (-(z - 0)))))

def sigmoid (z : EReal) : EReal := Ideal.div 1 (1 + Ideal.exp (-z))

def gatePre (hd hs a : Fin 32 → EReal) (W : Ten3 2 32 96) (bb : Mat 2 32) (l : Fin 2) (j : Fin 32) : EReal :=
  ((∑ k : Fin 32, hd k * W (ix3 l j ⟨k.val, by omega⟩) + ∑ k : Fin 32, hs k * W (ix3 l j ⟨32 + k.val, by omega⟩))
    + ∑ k : Fin 32, a k * W (ix3 l j ⟨64 + k.val, by omega⟩)) + bb (ix2 l j)

def gate (hd hs a : Fin 32 → EReal) (Wf : Ten3 2 32 96) (bf : Mat 2 32) (Ws : Ten3 2 32 96) (bs : Mat 2 32)
    (l : Fin 2) (j : Fin 32) : EReal :=
  sigmoid (gatePre hd hs a Wf bf l j) * softplus (gatePre hd hs a Ws bs l j)

def rowOf (n : Nat) (hn : 0 < n) {w : Nat} (i : BitVec w) : Fin n := ⟨min i.toInt.toNat (n - 1), by omega⟩

-- At +∞ both sides vanish; at a positive real the root is a non-zero real whose inverse embeds.
theorem div_sqrt_eq_mul_rsqrt (g y : EReal) (hy : 0 < y) : Ideal.div g (Ideal.sqrt y) = g * Ideal.rsqrt y := by
  induction y using EReal.rec with
  | bot => exact absurd hy (by simp)
  | top => simp [Ideal.div]
  | coe r =>
    have hr : 0 < r := by exact_mod_cast hy
    have hs : 0 < Real.sqrt r := Real.sqrt_pos.mpr hr
    rw [Ideal.sqrt_coe, Ideal.rsqrt_coe, if_neg (not_lt.mpr hr.le), if_neg (not_lt.mpr hr.le), if_neg hr.ne']
    unfold Ideal.div
    rw [if_neg (by exact_mod_cast hs.ne'), EReal.coe_inv]

-- The word is the normal number (2²³ + 0x27C5AC) · 2^(110 − 127 − 23).
theorem eps_pos : 0 < eps := by
  have h : eps = (((2 ^ 23 + 0x27C5AC : ℕ) : ℝ) * (2 : ℝ) ^ ((110 : ℤ) - 127 - 23) : ℝ) := by
    simp [eps, Ideal.ofBits, Ideal.ieee, -EReal.coe_mul]
  rw [h]
  exact_mod_cast (by positivity)

theorem scale_eq (g v : EReal) (hv : 0 ≤ v) : scaleDiv g v = scaleMul g v := by
  unfold scaleDiv scaleMul
  exact div_sqrt_eq_mul_rsqrt g (v + eps) (lt_of_lt_of_le eps_pos (le_add_of_nonneg_left hv))

theorem affDiv_eq_affMul {N D O : Nat} (x : Mat N D) (w : Mat O D) (b g be mu v : Vct O)
    (hv : ∀ q : Fin O, 0 ≤ v (ix1 q)) (p : Fin N) (q : Fin O) :
    affDiv x w b g be mu v p q = affMul x w b g be mu v p q := by
  unfold affDiv affMul; rw [scale_eq _ _ (hv q)]

-- 96 = (32 + 32) + 32: the range is split at 64, then at 32.
theorem sum_split3 (f : Fin 96 → EReal) :
    ∑ k : Fin 96, f k = (∑ k : Fin 32, f ⟨k.val, by omega⟩ + ∑ k : Fin 32, f ⟨32 + k.val, by omega⟩)
      + ∑ k : Fin 32, f ⟨64 + k.val, by omega⟩ := by
  have key : ∀ g : Fin (32 + 32 + 32) → EReal, ∑ k, g k =
      (∑ k : Fin 32, g (Fin.castAdd 32 (Fin.castAdd 32 k)) + ∑ k : Fin 32, g (Fin.castAdd 32 (Fin.natAdd 32 k)))
        + ∑ k : Fin 32, g (Fin.natAdd (32 + 32) k) := by
    intro g; rw [Fin.sum_univ_add, Fin.sum_univ_add]
  exact key f

end Cert.Spec

end
-- ==== Proof.Net.lean ====
import proofs.«403917_j43920335569181_3_alg».proof.Proof.Spec

noncomputable section

open scoped BigOperators

namespace Cert.Net

open Idealize.ShloMosaic Idealize.ShloMosaic.ValueIdx Cert.Spec

structure Args where
  x : Mat 50000 128
  ei : IVec (⟨2, ![2, 1600000]⟩ : Shape) 32
  eattr : Mat 1600000 128
  w_in : Mat 32 128
  b_in : Vct 32
  g_in : Vct 32
  be_in : Vct 32
  m_in : Vct 32
  v_in : Vct 32
  w_e : Mat 32 128
  b_e : Vct 32
  g_e : Vct 32
  be_e : Vct 32
  m_e : Vct 32
  v_e : Vct 32
  wf : Ten3 2 32 96
  bf : Mat 2 32
  ws : Ten3 2 32 96
  bs : Mat 2 32
  w_out : Mat 128 32
  b_out : Vct 128
  g_out : Vct 128
  be_out : Vct 128
  m_out : Vct 128
  v_out : Vct 128

def arrOf2 {a b : Nat} (f : Fin a → Fin b → EReal) : Mat a b := fun i => f (i 0) (i 1)
@[simp] theorem arrOf2_ix2 {a b : Nat} (f : Fin a → Fin b → EReal) (p : Fin a) (q : Fin b) : arrOf2 f (ix2 p q) = f p q := rfl
theorem eq_arrOf2 {a b : Nat} (A : Mat a b) (f : Fin a → Fin b → EReal) (h : ∀ p q, A (ix2 p q) = f p q) : A = arrOf2 f := by
  funext i
  obtain ⟨p, q, rfl⟩ : ∃ (p : Fin a) (q : Fin b), i = ix2 p q := ⟨i 0, i 1, eq_ix2 i⟩
  exact h p q

variable (A : Args)

def srcWord (e : Fin 1600000) : BitVec 32 := A.ei (ix2 (0 : Fin 2) e)
def dstWord (e : Fin 1600000) : BitVec 32 := A.ei (ix2 (1 : Fin 2) e)
def srcRow (e : Fin 1600000) : Fin 50000 := rowOf 50000 (by omega) (srcWord A e)
def dstRow (e : Fin 1600000) : Fin 50000 := rowOf 50000 (by omega) (dstWord A e)

def h0 : Mat 50000 32 := arrOf2 (affDiv A.x A.w_in A.b_in A.g_in A.be_in A.m_in A.v_in)
def ea : Mat 1600000 32 := arrOf2 (affDiv A.eattr A.w_e A.b_e A.g_e A.be_e A.m_e A.v_e)

def msg (l : Fin 2) (h : Mat 50000 32) : Mat 1600000 32 :=
  arrOf2 fun e j => gate (fun k => h (ix2 (dstRow A e) k)) (fun k => h (ix2 (srcRow A e) k)) (fun k => ea A (ix2 e k))
    A.wf A.bf A.ws A.bs l j

def upd (h : Mat 50000 32) (u : Mat 1600000 32) : Mat 50000 32 :=
  arrOf2 fun r q => h (ix2 r q) + (0 + ∑ e : Fin 1600000, if (dstWord A e).toInt = (r.val : Int) then u (ix2 e q) else 0)

def h1 : Mat 50000 32 := upd A (h0 A) (msg A 0 (h0 A))
def h2 : Mat 50000 32 := upd A (h1 A) (msg A 1 (h1 A))

def out : Mat 50000 128 := arrOf2 (affDiv (h2 A) A.w_out A.b_out A.g_out A.be_out A.m_out A.v_out)

end Cert.Net

end
-- ==== Proof.PreFacts.lean ====
import proofs.«403917_j43920335569181_3_alg».proof.Pre_finite_inputs
import proofs.«403917_j43920335569181_3_alg».proof.Proof.Gen.Pre_finite_inputs
import proofs.«403917_j43920335569181_3_alg».proof.Proof.Net
import Idealize.ShloMosaic.Lib.ReduceAll
import Idealize.ShloMosaic.Lib.StableHlo.Predicate
import Idealize.ShloMosaic.PureOps.Ideal.Laws

noncomputable section

open scoped BigOperators

namespace Cert.PreFacts

open Idealize.ShloMosaic Idealize.ShloMosaic.ValueIdx Cert.Spec Cert.Net
open Cert.Pre_finite_inputs

instance : Subsingleton S_.Idx := ⟨fun a b => funext fun d => d.elim0⟩

theorem andi_ix0 (x y : IVec S_ 1) (h : andi x y ix0 = 1#1) : x ix0 = 1#1 ∧ y ix0 = 1#1 := IntOp.andi_eq_one.1 h

-- An "and" over all entries is 1 only if every comparison is, and the compared word denotes 0.
theorem all_ge_zero {s : Shape} {axes : List (Fin s.rank)} (v : s.Idx → EReal) (hb : S_.BroadcastsInDim s (![] : Fin 0 → Fin s.rank))
    (hr : s.ReducesTo axes S_) (h0 : 0 < S_.numel)
    (e : Host.reduce IntOp.andi (cmpf (F := Ideal) (φ := .f32) .oge v (broadcastInDim s ![] hb (constant (F := Ideal) S_ .f32 0x00000000#32)))
      (constantI S_ 1 1#1) hr h0 ix0 = 1#1) (i : s.Idx) : 0 ≤ v i := by
  have e1 := Host.reduce_andi_all _ _ hr h0 ix0 e i
  simp only [cmpf, broadcastInDim, constant] at e1
  change Ideal.cmp .oge (v i) (Ideal.ofBits .f32 0x00000000#32) = 1#1 at e1
  rw [Ideal.ofBits_zero_f32] at e1
  unfold Ideal.cmp at e1
  simpa only [StableHlo.Predicate.ofBool_eq_one_iff, decide_eq_true_eq] using e1

-- The same for a signed comparison of 32-bit words against a constant.
theorem all_cmpi {s : Shape} {axes : List (Fin s.rank)} (p : CmpIPredicate) (c : BitVec 32) (v : IVec s 32)
    (hb : S_.BroadcastsInDim s (![] : Fin 0 → Fin s.rank)) (hr : s.ReducesTo axes S_) (h0 : 0 < S_.numel)
    (e : Host.reduce IntOp.andi (cmpi p v (broadcastInDim s ![] hb (constantI S_ 32 c)))
      (constantI S_ 1 1#1) hr h0 ix0 = 1#1) (i : s.Idx) : IntOp.cmpi p (v i) c = 1#1 :=
  Host.reduce_andi_all _ _ hr h0 ix0 e i

theorem of_fn [Cert.Pre_finite_inputs.Facts] (A : Args)
    (h : Cert.Pre_finite_inputs.fn (F := Ideal) A.x A.ei A.eattr A.w_in A.b_in A.g_in A.be_in A.m_in A.v_in A.w_e A.b_e A.g_e A.be_e A.m_e A.v_e A.wf A.bf A.ws A.bs A.w_out A.b_out A.g_out A.be_out A.m_out A.v_out = (fun _ => 1#1)) :
    (∀ q : Fin 32, 0 ≤ A.v_in (ix1 q)) ∧ (∀ q : Fin 32, 0 ≤ A.v_e (ix1 q)) ∧ (∀ q : Fin 128, 0 ≤ A.v_out (ix1 q))
      ∧ (∀ i, 0 ≤ (A.ei i).toInt ∧ (A.ei i).toInt < 50000) := by
  have e := congrFun h ix0
  dsimp only [Cert.Pre_finite_inputs.fn, fn_part1, fn_part2, fn_part3, fn_part4, fn_part5, fn_part6, fn_part7, fn_part8] at e
  obtain ⟨e, e5⟩ := andi_ix0 _ _ e
  obtain ⟨e, e4⟩ := andi_ix0 _ _ e
  obtain ⟨e, e3⟩ := andi_ix0 _ _ e
  obtain ⟨e, e2⟩ := andi_ix0 _ _ e
  obtain ⟨-, e1⟩ := andi_ix0 _ _ e
  exact ⟨fun q => all_ge_zero _ _ _ _ e1 (ix1 q), fun q => all_ge_zero _ _ _ _ e2 (ix1 q), fun q => all_ge_zero _ _ _ _ e3 (ix1 q),
    fun i => by
      have e4 := all_cmpi _ _ _ _ _ _ e4 i
      have e5 := all_cmpi _ _ _ _ _ _ e5 i
      unfold IntOp.cmpi at e4 e5
      simp only [StableHlo.Predicate.ofBool_eq_one_iff, BitVec.sle, BitVec.slt, decide_eq_true_eq] at e4 e5
      exact ⟨e4, e5⟩⟩

end Cert.PreFacts

end
-- ==== Proof.KArrays.lean ====
import proofs.«403917_j43920335569181_3_alg».proof.Proof.Gen.KernelIdeal.Frame
import proofs.«403917_j43920335569181_3_alg».proof.Proof.Net

noncomputable section

namespace Cert.KernelIdeal.KV

open Idealize.ShloMosaic Idealize.ShloMosaic.TcCoe Idealize.SL.Sem
open Cert.KernelIdeal Cert.KernelIdeal.Gen Cert.Spec

variable (m : (ℓ : Loc nD τ sig) → Buf (Elt Ideal) ℓ) (ρ : Dev nD → PrngReg)

-- Node embedding.
abbrev Kh0 (c : Dev nD) : Mat 50000 32 := W2 m ρ c (Proc.devRef .tc main_call0_v6)
-- Edge embedding.
abbrev Kea (c : Dev nD) : Mat 1600000 32 := W4 m ρ c (Proc.devRef .tc main_call0_v13)
-- First layer's messages.
abbrev Kmsg1 (c : Dev nD) : Mat 1600000 32 := W6 m ρ c (Proc.devRef .tc main_call0_v45)
-- Node features after the first layer.
abbrev Kh1 (c : Dev nD) : Mat 50000 32 := W7 m ρ c (Proc.devRef .tc main_call0_v49)
-- Second layer's messages.
abbrev Kmsg2 (c : Dev nD) : Mat 1600000 32 := W8 m ρ c (Proc.devRef .tc main_call0_v77)
-- Node features after the second layer.
abbrev Kh2 (c : Dev nD) : Mat 50000 32 := W9 m ρ c (Proc.devRef .tc main_call0_v81)
-- The result.
abbrev Kout (c : Dev nD) : Mat 50000 128 := W10 m ρ c (Proc.devRef .tc main_v0)

-- The argument arrays.
def KArgs (c : Dev nD) : Cert.Net.Args where
  x := m ((c : Thread nD τ).loc main_arg0)
  ei := m ((c : Thread nD τ).loc main_arg1)
  eattr := m ((c : Thread nD τ).loc main_arg2)
  w_in := m ((c : Thread nD τ).loc main_arg3)
  b_in := m ((c : Thread nD τ).loc main_arg4)
  g_in := m ((c : Thread nD τ).loc main_arg5)
  be_in := m ((c : Thread nD τ).loc main_arg6)
  m_in := m ((c : Thread nD τ).loc main_arg7)
  v_in := m ((c : Thread nD τ).loc main_arg8)
  w_e := m ((c : Thread nD τ).loc main_arg9)
  b_e := m ((c : Thread nD τ).loc main_arg10)
  g_e := m ((c : Thread nD τ).loc main_arg11)
  be_e := m ((c : Thread nD τ).loc main_arg12)
  m_e := m ((c : Thread nD τ).loc main_arg13)
  v_e := m ((c : Thread nD τ).loc main_arg14)
  wf := m ((c : Thread nD τ).loc main_arg15)
  bf := m ((c : Thread nD τ).loc main_arg16)
  ws := m ((c : Thread nD τ).loc main_arg17)
  bs := m ((c : Thread nD τ).loc main_arg18)
  w_out := m ((c : Thread nD τ).loc main_arg19)
  b_out := m ((c : Thread nD τ).loc main_arg20)
  g_out := m ((c : Thread nD τ).loc main_arg21)
  be_out := m ((c : Thread nD τ).loc main_arg22)
  m_out := m ((c : Thread nD τ).loc main_arg23)
  v_out := m ((c : Thread nD τ).loc main_arg24)

end Cert.KernelIdeal.KV

end
-- ==== Proof.KAffCommon.lean ====
import proofs.«403917_j43920335569181_3_alg».proof.Proof.KArrays
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KV.Aff

open Idealize.ShloMosaic Idealize.ShloMosaic.TcCoe Idealize.ShloMosaic.ValueIdx Idealize.SL.Sem
open Cert.KernelIdeal Cert.KernelIdeal.Gen Cert.Spec Cert.Net

-- The comparison with the zero word decides 0 < z, the two branches are z and the slope times z.
theorem lrelu_select (z : EReal) :
    Scalar.select (FloatOps.cmpf (F := Ideal) (φ := .f32) .ogt z (Ideal.ofBits .f32 0x00000000#32)) z (Ideal.ofBits .f32 0x3DCCCCCD#32 * z) = lrelu z := by
  rw [Ideal.ofBits_zero_f32]
  unfold lrelu Spec.slope Scalar.select
  show (if BitVec.ofBool (decide ((0 : EReal) < z)) = 1#1 then _ else _) = _
  by_cases h : (0 : EReal) < z
  · rw [if_pos h, decide_eq_true h]; rfl
  · rw [if_neg h, decide_eq_false h]; rfl

theorem rsqrt_apply {s : Shape} {φ : FTy} (a : FVec Ideal s φ) (i : s.Idx) : rsqrt a i = FloatOps.rsqrt (a i) := rfl

theorem hz : (![0, 0] : Fin 2 → Nat) = fun _ => 0 := funext fun a => by fin_cases a <;> rfl

-- With no batch axis the one free axis of the left operand is the result's axis 0.
theorem lhsIdx_val_of_non {sl sr so : Shape} (d : DotDims sl sr so) {a : Fin sl.rank} (hb : d.lhsBatch = []) (hn : d.lhsNonContracting = [a])
    (h : 0 < so.rank) (j : so.Idx) (k : d.contr.Idx) : (d.lhsIdx j k a).val = (j ⟨0, h⟩).val := by
  have hnb : a ∉ d.lhsBatch := by simp [hb]
  have hmem : a ∈ d.lhsNonContracting := by simp [hn]
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

-- With no batch axis and one free left axis the one free axis of the right operand is the result's axis 1.
theorem rhsIdx_val_of_non {sl sr so : Shape} (d : DotDims sl sr so) {a : Fin sr.rank} {a' : Fin sl.rank} (hlb : d.lhsBatch = [])
    (hln : d.lhsNonContracting = [a']) (hb : d.rhsBatch = []) (hn : d.rhsNonContracting = [a])
    (h : 1 < so.rank) (j : so.Idx) (k : d.contr.Idx) : (d.rhsIdx j k a).val = (j ⟨1, h⟩).val := by
  have hnb : a ∉ d.rhsBatch := by simp [hb]
  have hmem : a ∈ d.rhsNonContracting := by simp [hn]
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

-- A rank-2 product over the left axis 1 and the right axis 0 into the zero accumulator: row p against column q.
theorem mm_apply {N D O : Nat} (d : DotDims ⟨2, ![N, D]⟩ ⟨2, ![D, O]⟩ ⟨2, ![N, O]⟩)
    (hr : d.contr.rank = 1) (hs : d.contr.size ⟨0, by omega⟩ = D)
    (hlb : d.lhsBatch = []) (hln : d.lhsNonContracting = [0]) (hlc : d.lhsContracting = [1])
    (hrb : d.rhsBatch = []) (hrn : d.rhsNonContracting = [1]) (hrc : d.rhsContracting = [0])
    (x0 : FVec Ideal ⟨2, ![N, D]⟩ .f32) (x1 : FVec Ideal ⟨2, ![D, O]⟩ .f32) (p : Fin N) (q : Fin O) :
    matmul d none x0 x1 (constant ⟨2, ![N, O]⟩ .f32 0x00000000#32) (ix2 p q) = ∑ k : Fin D, x0 (ix2 p k) * x1 (ix2 k q) := by
  refine (Ideal.matmul_constant_zero_apply d none x0 x1 (ix2 p q)).trans ?_
  rw [← Equiv.sum_comp (contrEquiv1 d D hr hs).symm]
  refine Finset.sum_congr rfl fun k _ => ?_
  have hk := contrEquiv1_symm_val d D hr hs k
  rw [show d.lhsIdx (ix2 p q) ((contrEquiv1 d D hr hs).symm k) = ix2 p k from
      Shape.idx_ext₂ (lhsIdx_val_of_non d hlb hln Nat.zero_lt_two _ _) ((d.lhsIdx_val_of_single hlc _ _).trans hk),
    show d.rhsIdx (ix2 p q) ((contrEquiv1 d D hr hs).symm k) = ix2 k q from
      Shape.idx_ext₂ ((d.rhsIdx_val_of_single hrc _ _).trans hk) (rhsIdx_val_of_non d hlb hln hrb hrn Nat.one_lt_two _ _)]

def affT {N D O : Nat} (x : Mat N D) (wT : Mat D O) (b g be mu v : Mat 1 O) : Mat N O :=
  arrOf2 fun p q => affineWith (scaleMul (g (ix2 (0 : Fin 1) q)) (v (ix2 (0 : Fin 1) q))) (∑ k : Fin D, x (ix2 p k) * wT (ix2 k q))
    (b (ix2 (0 : Fin 1) q)) (mu (ix2 (0 : Fin 1) q)) (be (ix2 (0 : Fin 1) q))

-- A transposed weight reads w[q, k] at (k, q); a vector recast as a row reads the vector at q.
theorem affT_eq_affMul {N D O : Nat} (x : Mat N D) (w : Mat O D) (b g be mu v : Vct O)
    (hT : (⟨2, ![O, D]⟩ : Shape).Transposes [1, 0] ⟨2, ![D, O]⟩) (hc : (⟨1, ![O]⟩ : Shape).ShapeCasts ⟨2, ![1, O]⟩) (p : Fin N) (q : Fin O) :
    affT x (transpose ⟨2, ![D, O]⟩ [1, 0] w hT) (shapeCast ⟨2, ![1, O]⟩ b hc) (shapeCast ⟨2, ![1, O]⟩ g hc) (shapeCast ⟨2, ![1, O]⟩ be hc)
      (shapeCast ⟨2, ![1, O]⟩ mu hc) (shapeCast ⟨2, ![1, O]⟩ v hc) (ix2 p q) = affMul x w b g be mu v p q := by
  unfold affT affMul
  rw [arrOf2_ix2]
  simp only [shapeCast_a_1a_apply]
  refine congrArg (fun s => affineWith _ s _ _ _) (Finset.sum_congr rfl fun k _ => ?_)
  rw [transpose_ix2_apply]

-- An array read through an index map that keeps both coordinates is the array.
theorem read_id {A B : Nat} {α : Type} (f : (⟨2, ![A, B]⟩ : Shape).Idx → α) {e : (⟨2, ![A, B]⟩ : Shape).Idx → (⟨2, ![A, B]⟩ : Shape).Idx}
    (h0 : ∀ y, (e y 0 : ℕ) = y 0) (h1 : ∀ y, (e y 1 : ℕ) = y 1) : (fun y => f (e y)) = f :=
  funext fun y => congrArg f (Shape.idx_ext₂ (h0 y) (h1 y))

-- The affine stage reads its input through row p only, so a block of rows gives those rows of the result.
theorem affT_blk {n R D O : Nat} {X0 : Mat n D} {A0 : Mat R D} {X1 A1 : Mat D O} {X2 X3 X4 X5 X6 A2 A3 A4 A5 A6 : Mat 1 O}
    {p : Fin n} {q : Fin O} {i : (⟨2, ![R, O]⟩ : Shape).Idx} (r : Fin R) (hi0 : (i 0 : ℕ) = r) (hi1 : (i 1 : ℕ) = q)
    (h0 : ∀ k, X0 (ix2 p k) = A0 (ix2 r k)) (h1 : X1 = A1) (h2 : X2 = A2) (h3 : X3 = A3) (h4 : X4 = A4) (h5 : X5 = A5) (h6 : X6 = A6) :
    affT X0 X1 X2 X3 X4 X5 X6 (ix2 p q) = affT A0 A1 A2 A3 A4 A5 A6 i := by
  subst h1 h2 h3 h4 h5 h6
  obtain rfl : i = ix2 r q := Shape.idx_ext₂ hi0 hi1
  unfold affT
  simp only [arrOf2_ix2, h0]

end Cert.KernelIdeal.KV.Aff

end
-- ==== Proof.KAff.lean ====
import proofs.«403917_j43920335569181_3_alg».proof.Proof.KAffCommon

noncomputable section

open scoped BigOperators

namespace Cert.KernelIdeal.KV.Aff

open Idealize.ShloMosaic Idealize.ShloMosaic.TcCoe Idealize.ShloMosaic.ValueIdx Idealize.SL.Sem
open Cert.KernelIdeal Cert.KernelIdeal.Gen Cert.Spec Cert.Net

section Blocks

variable (V : (c : Dev nD) → (b : Ref sig .tc) → Buf (Elt Ideal) ((c : Thread nD τ).loc b))

-- The body's select, scale and shift spell the affine stage, its product the contraction of row p with column q.
theorem pay0_apply (x0 : Vec Ideal S10000x128 .f32) (x1 : Vec Ideal S128x32 .f32) (vb vg vv vm vbe : Vec Ideal S1x32 .f32)
    (p : Fin 10000) (q : Fin 32) :
    k0_pay1 (F := Ideal) x0 x1 vb vg vv vm vbe (ix2 p q) = affT (N := 10000) (D := 128) (O := 32) x0 x1 vb vg vbe vm vv (ix2 p q) := by
  unfold k0_pay1 affT
  simp only [arrOf2_ix2, shapeCast_self, select_apply, cmpf_apply, mulf_apply, addf_apply, subf_apply, broadcast_apply,
    broadcastTo_1b_ab_apply, mm_apply dot_S10000x128_S128x32_S10000x32_1_0_0_1_n_n rfl rfl rfl rfl rfl rfl rfl rfl, rsqrt_apply]
  exact lrelu_select _

theorem idx0 : ∀ t : Fin cfg0.N, win0_0.index t (0 : Fin 2) = t.val ∧ win0_7.index t (0 : Fin 2) = t.val :=
  (by decide +kernel : ∀ t : Fin grid0.N, _)

-- Row r lies in the block of point r / (rows per block).
theorem cover0 (i : S50000x32.Idx) : ∃ t : Fin cfg0.N, (cfg0.win 7).flush t = true ∧ i ∈ ((cfg0.win 7).blk t).view.set := by
  have hN : cfg0.N = 5 := N_0
  have hi0 : (i 0).val < 50000 := (i 0).isLt
  have hi1 : (i 1).val < 32 := (i 1).isLt
  obtain ⟨t, ht⟩ : ∃ t : Fin cfg0.N, t.val = (i 0).val / 10000 := ⟨⟨(i 0).val / 10000, by rw [hN]; omega⟩, rfl⟩
  refine ⟨t, flush0_7 t, ?_⟩
  show i ∈ ((View.whole main_call0_v6).slice (win0_7.rect t)).set
  rw [View.set_slice_whole, Rect.mem_set_unit]
  intro a
  match a with
  | ⟨0, _⟩ => show win0_7.index t (0 : Fin 2) * 10000 ≤ (i 0).val ∧ (i 0).val < win0_7.index t (0 : Fin 2) * 10000 + 10000; rw [(idx0 t).2, ht]; omega
  | ⟨1, _⟩ => show 0 * 32 ≤ (i 1).val ∧ (i 1).val < 0 * 32 + 32; omega

-- At every grid point the stored block is that block of the affine stage of the arrays, and the blocks cover the result.
theorem arr0_eq (c : Dev nD) : (dat0 V c).arrAt 7 cfg0.N
    = affT (V c main_arg0) (V c main_call0_v0) (V c main_call0_v1) (V c main_call0_v2) (V c main_call0_v3) (V c main_call0_v4) (V c main_call0_v5) := by
  refine (dat0 V c).arrAt_eq_of_cover 7 _ (fun t _ => ?_) cover0
  show (cfg0.win 7).cut (grid0.coords t) ((dat0 V c).after 7 t) = _
  rw [after0_7]
  unfold out0_7
  rw [View.canon_unit_zero hz]
  simp only [View.ld_unit_zero (S := S10000x128) hz, View.ld_unit_zero (S := S128x32) hz, View.ld_unit_zero (S := S1x32) hz]
  refine funext fun (j : S10000x32.Idx) => ?_
  obtain ⟨p, q, rfl⟩ : ∃ (p : Fin 10000) (q : Fin 32), j = ix2 p q := ⟨j 0, j 1, eq_ix2 j⟩
  obtain ⟨e0, e7⟩ := idx0 t
  have hN : cfg0.N = 5 := N_0
  have ht : t.val < 5 := hN ▸ t.isLt
  rw [View.read_apply]
  show k0_pay1 (F := Ideal) (iblk0 V c 0 t) (iblk0 V c 1 t) (iblk0 V c 2 t) (iblk0 V c 3 t) (iblk0 V c 6 t) (iblk0 V c 5 t) (iblk0 V c 4 t) (ix2 p q) = _
  rw [pay0_apply]
  exact affT_blk ⟨t.val * 10000 + p.val, by omega⟩
    ((win0_7.rect_emb_val t _ 0).trans (congrArg (· * 10000 + p.val) e7)) (win0_7.rect_emb_val_of_index_zero t 1 rfl _)
    (fun k => congrArg (V c main_arg0 : Mat 50000 128) (Shape.idx_ext₂
      ((win0_0.rect_emb_val t _ 0).trans (congrArg (· * 10000 + p.val) e0)) (win0_0.rect_emb_val_of_index_zero t 1 rfl _)))
    (read_id (V c main_call0_v0 : Mat 128 32) (win0_1.rect_emb_val_of_index_zero t 0 rfl) (win0_1.rect_emb_val_of_index_zero t 1 rfl))
    (read_id (V c main_call0_v1 : Mat 1 32) (win0_2.rect_emb_val_of_index_zero t 0 rfl) (win0_2.rect_emb_val_of_index_zero t 1 rfl))
    (read_id (V c main_call0_v2 : Mat 1 32) (win0_3.rect_emb_val_of_index_zero t 0 rfl) (win0_3.rect_emb_val_of_index_zero t 1 rfl))
    (read_id (V c main_call0_v3 : Mat 1 32) (win0_4.rect_emb_val_of_index_zero t 0 rfl) (win0_4.rect_emb_val_of_index_zero t 1 rfl))
    (read_id (V c main_call0_v4 : Mat 1 32) (win0_5.rect_emb_val_of_index_zero t 0 rfl) (win0_5.rect_emb_val_of_index_zero t 1 rfl))
    (read_id (V c main_call0_v5 : Mat 1 32) (win0_6.rect_emb_val_of_index_zero t 0 rfl) (win0_6.rect_emb_val_of_index_zero t 1 rfl))

-- The body's select, scale and shift spell the affine stage, its product the contraction of row p with column q.
theorem pay1_apply (x0 : Vec Ideal S20000x128 .f32) (x1 : Vec Ideal S128x32 .f32) (vb vg vv vm vbe : Vec Ideal S1x32 .f32)
    (p : Fin 20000) (q : Fin 32) :
    k1_pay1 (F := Ideal) x0 x1 vb vg vv vm vbe (ix2 p q) = affT (N := 20000) (D := 128) (O := 32) x0 x1 vb vg vbe vm vv (ix2 p q) := by
  unfold k1_pay1 affT
  simp only [arrOf2_ix2, shapeCast_self, select_apply, cmpf_apply, mulf_apply, addf_apply, subf_apply, broadcast_apply,
    broadcastTo_1b_ab_apply, mm_apply dot_S20000x128_S128x32_S20000x32_1_0_0_1_n_n rfl rfl rfl rfl rfl rfl rfl rfl, rsqrt_apply]
  exact lrelu_select _

theorem idx1 : ∀ t : Fin cfg1.N, win1_0.index t (0 : Fin 2) = t.val ∧ win1_7.index t (0 : Fin 2) = t.val :=
  (by decide +kernel : ∀ t : Fin grid1.N, _)

-- Row r lies in the block of point r / (rows per block).
theorem cover1 (i : S1600000x32.Idx) : ∃ t : Fin cfg1.N, (cfg1.win 7).flush t = true ∧ i ∈ ((cfg1.win 7).blk t).view.set := by
  have hN : cfg1.N = 80 := N_1
  have hi0 : (i 0).val < 1600000 := (i 0).isLt
  have hi1 : (i 1).val < 32 := (i 1).isLt
  obtain ⟨t, ht⟩ : ∃ t : Fin cfg1.N, t.val = (i 0).val / 20000 := ⟨⟨(i 0).val / 20000, by rw [hN]; omega⟩, rfl⟩
  refine ⟨t, flush1_7 t, ?_⟩
  show i ∈ ((View.whole main_call0_v13).slice (win1_7.rect t)).set
  rw [View.set_slice_whole, Rect.mem_set_unit]
  intro a
  match a with
  | ⟨0, _⟩ => show win1_7.index t (0 : Fin 2) * 20000 ≤ (i 0).val ∧ (i 0).val < win1_7.index t (0 : Fin 2) * 20000 + 20000; rw [(idx1 t).2, ht]; omega
  | ⟨1, _⟩ => show 0 * 32 ≤ (i 1).val ∧ (i 1).val < 0 * 32 + 32; omega

-- At every grid point the stored block is that block of the affine stage of the arrays, and the blocks cover the result.
theorem arr1_eq (c : Dev nD) : (dat1 V c).arrAt 7 cfg1.N
    = affT (V c main_arg2) (V c main_call0_v7) (V c main_call0_v8) (V c main_call0_v9) (V c main_call0_v10) (V c main_call0_v11) (V c main_call0_v12) := by
  refine (dat1 V c).arrAt_eq_of_cover 7 _ (fun t _ => ?_) cover1
  show (cfg1.win 7).cut (grid1.coords t) ((dat1 V c).after 7 t) = _
  rw [after1_7]
  unfold out1_7
  rw [View.canon_unit_zero hz]
  simp only [View.ld_unit_zero (S := S20000x128) hz, View.ld_unit_zero (S := S128x32) hz, View.ld_unit_zero (S := S1x32) hz]
  refine funext fun (j : S20000x32.Idx) => ?_
  obtain ⟨p, q, rfl⟩ : ∃ (p : Fin 20000) (q : Fin 32), j = ix2 p q := ⟨j 0, j 1, eq_ix2 j⟩
  obtain ⟨e0, e7⟩ := idx1 t
  have hN : cfg1.N = 80 := N_1
  have ht : t.val < 80 := hN ▸ t.isLt
  rw [View.read_apply]
  show k1_pay1 (F := Ideal) (iblk1 V c 0 t) (iblk1 V c 1 t) (iblk1 V c 2 t) (iblk1 V c 3 t) (iblk1 V c 6 t) (iblk1 V c 5 t) (iblk1 V c 4 t) (ix2 p q) = _
  rw [pay1_apply]
  exact affT_blk ⟨t.val * 20000 + p.val, by omega⟩
    ((win1_7.rect_emb_val t _ 0).trans (congrArg (· * 20000 + p.val) e7)) (win1_7.rect_emb_val_of_index_zero t 1 rfl _)
    (fun k => congrArg (V c main_arg2 : Mat 1600000 128) (Shape.idx_ext₂
      ((win1_0.rect_emb_val t _ 0).trans (congrArg (· * 20000 + p.val) e0)) (win1_0.rect_emb_val_of_index_zero t 1 rfl _)))
    (read_id (V c main_call0_v7 : Mat 128 32) (win1_1.rect_emb_val_of_index_zero t 0 rfl) (win1_1.rect_emb_val_of_index_zero t 1 rfl))
    (read_id (V c main_call0_v8 : Mat 1 32) (win1_2.rect_emb_val_of_index_zero t 0 rfl) (win1_2.rect_emb_val_of_index_zero t 1 rfl))
    (read_id (V c main_call0_v9 : Mat 1 32) (win1_3.rect_emb_val_of_index_zero t 0 rfl) (win1_3.rect_emb_val_of_index_zero t 1 rfl))
    (read_id (V c main_call0_v10 : Mat 1 32) (win1_4.rect_emb_val_of_index_zero t 0 rfl) (win1_4.rect_emb_val_of_index_zero t 1 rfl))
    (read_id (V c main_call0_v11 : Mat 1 32) (win1_5.rect_emb_val_of_index_zero t 0 rfl) (win1_5.rect_emb_val_of_index_zero t 1 rfl))
    (read_id (V c main_call0_v12 : Mat 1 32) (win1_6.rect_emb_val_of_index_zero t 0 rfl) (win1_6.rect_emb_val_of_index_zero t 1 rfl))

-- The body's select, scale and shift spell the affine stage, its product the contraction of row p with column q.
theorem pay4_apply (x0 : Vec Ideal S10000x32 .f32) (x1 : Vec Ideal S32x128 .f32) (vb vg vv vm vbe : Vec Ideal S1x128 .f32)
    (p : Fin 10000) (q : Fin 128) :
    k4_pay1 (F := Ideal) x0 x1 vb vg vv vm vbe (ix2 p q) = affT (N := 10000) (D := 32) (O := 128) x0 x1 vb vg vbe vm vv (ix2 p q) := by
  unfold k4_pay1 affT
  simp only [arrOf2_ix2, shapeCast_self, select_apply, cmpf_apply, mulf_apply, addf_apply, subf_apply, broadcast_apply,
    broadcastTo_1b_ab_apply, mm_apply dot_S10000x32_S32x128_S10000x128_1_0_0_1_n_n rfl rfl rfl rfl rfl rfl rfl rfl, rsqrt_apply]
  exact lrelu_select _

theorem idx4 : ∀ t : Fin cfg4.N, win4_0.index t (0 : Fin 2) = t.val ∧ win4_7.index t (0 : Fin 2) = t.val :=
  (by decide +kernel : ∀ t : Fin grid4.N, _)

-- Row r lies in the block of point r / (rows per block).
theorem cover4 (i : S50000x128.Idx) : ∃ t : Fin cfg4.N, (cfg4.win 7).flush t = true ∧ i ∈ ((cfg4.win 7).blk t).view.set := by
  have hN : cfg4.N = 5 := N_4
  have hi0 : (i 0).val < 50000 := (i 0).isLt
  have hi1 : (i 1).val < 128 := (i 1).isLt
  obtain ⟨t, ht⟩ : ∃ t : Fin cfg4.N, t.val = (i 0).val / 10000 := ⟨⟨(i 0).val / 10000, by rw [hN]; omega⟩, rfl⟩
  refine ⟨t, flush4_7 t, ?_⟩
  show i ∈ ((View.whole main_v0).slice (win4_7.rect t)).set
  rw [View.set_slice_whole, Rect.mem_set_unit]
  intro a
  match a with
  | ⟨0, _⟩ => show win4_7.index t (0 : Fin 2) * 10000 ≤ (i 0).val ∧ (i 0).val < win4_7.index t (0 : Fin 2) * 10000 + 10000; rw [(idx4 t).2, ht]; omega
  | ⟨1, _⟩ => show 0 * 128 ≤ (i 1).val ∧ (i 1).val < 0 * 128 + 128; omega

-- At every grid point the stored block is that block of the affine stage of the arrays, and the blocks cover the result.
theorem arr4_eq (c : Dev nD) : (dat4 V c).arrAt 7 cfg4.N
    = affT (V c main_call0_v81) (V c main_call0_v82) (V c main_call0_v83) (V c main_call0_v84) (V c main_call0_v85) (V c main_call0_v86) (V c main_call0_v87) := by
  refine (dat4 V c).arrAt_eq_of_cover 7 _ (fun t _ => ?_) cover4
  show (cfg4.win 7).cut (grid4.coords t) ((dat4 V c).after 7 t) = _
  rw [after4_7]
  unfold out4_7
  rw [View.canon_unit_zero hz]
  simp only [View.ld_unit_zero (S := S10000x32) hz, View.ld_unit_zero (S := S32x128) hz, View.ld_unit_zero (S := S1x128) hz]
  refine funext fun (j : S10000x128.Idx) => ?_
  obtain ⟨p, q, rfl⟩ : ∃ (p : Fin 10000) (q : Fin 128), j = ix2 p q := ⟨j 0, j 1, eq_ix2 j⟩
  obtain ⟨e0, e7⟩ := idx4 t
  have hN : cfg4.N = 5 := N_4
  have ht : t.val < 5 := hN ▸ t.isLt
  rw [View.read_apply]
  show k4_pay1 (F := Ideal) (iblk4 V c 0 t) (iblk4 V c 1 t) (iblk4 V c 2 t) (iblk4 V c 3 t) (iblk4 V c 6 t) (iblk4 V c 5 t) (iblk4 V c 4 t) (ix2 p q) = _
  rw [pay4_apply]
  exact affT_blk ⟨t.val * 10000 + p.val, by omega⟩
    ((win4_7.rect_emb_val t _ 0).trans (congrArg (· * 10000 + p.val) e7)) (win4_7.rect_emb_val_of_index_zero t 1 rfl _)
    (fun k => congrArg (V c main_call0_v81 : Mat 50000 32) (Shape.idx_ext₂
      ((win4_0.rect_emb_val t _ 0).trans (congrArg (· * 10000 + p.val) e0)) (win4_0.rect_emb_val_of_index_zero t 1 rfl _)))
    (read_id (V c main_call0_v82 : Mat 32 128) (win4_1.rect_emb_val_of_index_zero t 0 rfl) (win4_1.rect_emb_val_of_index_zero t 1 rfl))
    (read_id (V c main_call0_v83 : Mat 1 128) (win4_2.rect_emb_val_of_index_zero t 0 rfl) (win4_2.rect_emb_val_of_index_zero t 1 rfl))
    (read_id (V c main_call0_v84 : Mat 1 128) (win4_3.rect_emb_val_of_index_zero t 0 rfl) (win4_3.rect_emb_val_of_index_zero t 1 rfl))
    (read_id (V c main_call0_v85 : Mat 1 128) (win4_4.rect_emb_val_of_index_zero t 0 rfl) (win4_4.rect_emb_val_of_index_zero t 1 rfl))
    (read_id (V c main_call0_v86 : Mat 1 128) (win4_5.rect_emb_val_of_index_zero t 0 rfl) (win4_5.rect_emb_val_of_index_zero t 1 rfl))
    (read_id (V c main_call0_v87 : Mat 1 128) (win4_6.rect_emb_val_of_index_zero t 0 rfl) (win4_6.rect_emb_val_of_index_zero t 1 rfl))

end Blocks

variable (m : (ℓ : Loc nD τ sig) → Buf (Elt Ideal) ℓ) (ρ : Dev nD → PrngReg)

-- A buffer that neither the host operations before the last launch nor that launch writes holds at the end what it held before them.
theorem W8_arg (c : Dev nD) (b : Ref sig .tc) (hw : ∀ w, Pipeline.arrRef spec4 w ≠ b)
    (hb : StableHlo.after hostOps4 (W8 m ρ c) (Proc.devRef .tc b) = W8 m ρ c (Proc.devRef .tc b)) :
    W8 m ρ c (Proc.devRef .tc b) = W10 m ρ c (Proc.devRef .tc b) :=
  ((W10_of_ne m ρ c b hw).trans hb).symm

-- Each operand of the first launch is its host operation's result on an argument.
theorem V1_ops (c : Dev nD) :
    V1 m ρ c main_arg0 = (KArgs m c).x
    ∧ V1 m ρ c main_call0_v0 = transpose S128x32 [1, 0] (KArgs m c).w_in transposes_S32x128_S128x32_1_0
    ∧ V1 m ρ c main_call0_v1 = shapeCast S1x32 (KArgs m c).b_in shapeCasts_S32_S1x32
    ∧ V1 m ρ c main_call0_v2 = shapeCast S1x32 (KArgs m c).g_in shapeCasts_S32_S1x32
    ∧ V1 m ρ c main_call0_v3 = shapeCast S1x32 (KArgs m c).be_in shapeCasts_S32_S1x32
    ∧ V1 m ρ c main_call0_v4 = shapeCast S1x32 (KArgs m c).m_in shapeCasts_S32_S1x32
    ∧ V1 m ρ c main_call0_v5 = shapeCast S1x32 (KArgs m c).v_in shapeCasts_S32_S1x32 := by
  refine ⟨?_, ?_, ?_, ?_, ?_, ?_, ?_⟩ <;>
    (show StableHlo.after hostOps0 (W0 m ρ c) (Proc.devRef .tc _) = _
     after_results
     rfl)

-- The same for the second launch; the arguments are still in place after the first launch.
theorem V3_ops (c : Dev nD) :
    V3 m ρ c main_arg2 = (KArgs m c).eattr
    ∧ V3 m ρ c main_call0_v7 = transpose S128x32 [1, 0] (KArgs m c).w_e transposes_S32x128_S128x32_1_0
    ∧ V3 m ρ c main_call0_v8 = shapeCast S1x32 (KArgs m c).b_e shapeCasts_S32_S1x32
    ∧ V3 m ρ c main_call0_v9 = shapeCast S1x32 (KArgs m c).g_e shapeCasts_S32_S1x32
    ∧ V3 m ρ c main_call0_v10 = shapeCast S1x32 (KArgs m c).be_e shapeCasts_S32_S1x32
    ∧ V3 m ρ c main_call0_v11 = shapeCast S1x32 (KArgs m c).m_e shapeCasts_S32_S1x32
    ∧ V3 m ρ c main_call0_v12 = shapeCast S1x32 (KArgs m c).v_e shapeCasts_S32_S1x32 := by
  refine ⟨?_, ?_, ?_, ?_, ?_, ?_, ?_⟩ <;>
    (show StableHlo.after hostOps1 (W2 m ρ c) (Proc.devRef .tc _) = _
     after_results
     rw [W2_of_ne]
     rotate_left
     · decide
     simp only [W1]
     after_results
     rfl)

-- The same for the last launch; the arguments stay in place to the end of the run.
theorem V9_ops (c : Dev nD) :
    V9 m ρ c main_call0_v82 = transpose S32x128 [1, 0] (KArgs m c).w_out transposes_S128x32_S32x128_1_0
    ∧ V9 m ρ c main_call0_v83 = shapeCast S1x128 (KArgs m c).b_out shapeCasts_S128_S1x128
    ∧ V9 m ρ c main_call0_v84 = shapeCast S1x128 (KArgs m c).g_out shapeCasts_S128_S1x128
    ∧ V9 m ρ c main_call0_v85 = shapeCast S1x128 (KArgs m c).be_out shapeCasts_S128_S1x128
    ∧ V9 m ρ c main_call0_v86 = shapeCast S1x128 (KArgs m c).m_out shapeCasts_S128_S1x128
    ∧ V9 m ρ c main_call0_v87 = shapeCast S1x128 (KArgs m c).v_out shapeCasts_S128_S1x128 := by
  refine ⟨?_, ?_, ?_, ?_, ?_, ?_⟩ <;>
    (show StableHlo.after hostOps4 (W8 m ρ c) (Proc.devRef .tc _) = _
     after_results
     rw [W8_arg]
     rotate_left
     · decide
     · after_results
     first | rw [W10_main_arg19] | rw [W10_main_arg20] | rw [W10_main_arg21] | rw [W10_main_arg22] | rw [W10_main_arg23] | rw [W10_main_arg24]
     rfl)

end Cert.KernelIdeal.KV.Aff

namespace Cert.KernelIdeal.KV

open Idealize.ShloMosaic Idealize.ShloMosaic.TcCoe Idealize.ShloMosaic.ValueIdx Idealize.SL.Sem
open Cert.KernelIdeal Cert.KernelIdeal.Gen Cert.Spec Cert.Net Cert.KernelIdeal.KV.Aff

variable (m : (ℓ : Loc nD τ sig) → Buf (Elt Ideal) ℓ) (ρ : Dev nD → PrngReg)

theorem k_h0 (c : Dev nD) (p : Fin 50000) (q : Fin 32) :
    Kh0 m ρ c (ix2 p q) = affMul (KArgs m c).x (KArgs m c).w_in (KArgs m c).b_in (KArgs m c).g_in (KArgs m c).be_in (KArgs m c).m_in (KArgs m c).v_in p q := by
  have h : Kh0 m ρ c = (dat0 (V1 m ρ) c).arrAt 7 cfg0.N := W2_arr m ρ c 7
  obtain ⟨h0, h1, h2, h3, h4, h5, h6⟩ := V1_ops m ρ c
  rw [h, arr0_eq, h0, h1, h2, h3, h4, h5, h6]
  exact affT_eq_affMul _ _ _ _ _ _ _ _ _ p q

theorem k_ea (c : Dev nD) (p : Fin 1600000) (q : Fin 32) :
    Kea m ρ c (ix2 p q) = affMul (KArgs m c).eattr (KArgs m c).w_e (KArgs m c).b_e (KArgs m c).g_e (KArgs m c).be_e (KArgs m c).m_e (KArgs m c).v_e p q := by
  have h : Kea m ρ c = (dat1 (V3 m ρ) c).arrAt 7 cfg1.N := W4_arr m ρ c 7
  obtain ⟨h0, h1, h2, h3, h4, h5, h6⟩ := V3_ops m ρ c
  rw [h, arr1_eq, h0, h1, h2, h3, h4, h5, h6]
  exact affT_eq_affMul _ _ _ _ _ _ _ _ _ p q

theorem k_out (c : Dev nD) (p : Fin 50000) (q : Fin 128) :
    Kout m ρ c (ix2 p q) = affMul (Kh2 m ρ c) (KArgs m c).w_out (KArgs m c).b_out (KArgs m c).g_out (KArgs m c).be_out (KArgs m c).m_out (KArgs m c).v_out p q := by
  have h : Kout m ρ c = (dat4 (V9 m ρ) c).arrAt 7 cfg4.N := W10_arr m ρ c 7
  obtain ⟨h1, h2, h3, h4, h5, h6⟩ := V9_ops m ρ c
  rw [h, arr4_eq, h1, h2, h3, h4, h5, h6]
  exact affT_eq_affMul _ _ _ _ _ _ _ _ _ p q

end Cert.KernelIdeal.KV

end
-- ==== Proof.KGateReg.lean ====
import proofs.«403917_j43920335569181_3_alg».proof.Proof.Gen.KernelIdeal.Frame
import proofs.«403917_j43920335569181_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.Spec

def gateT (hd hs a : Mat 1600000 32) (w0 w1 w2 : Mat 32 64) (b : Mat 1 64) (e : Fin 1600000) (j' : Fin 64) : EReal :=
  ((∑ k : Fin 32, hd (ix2 e k) * w0 (ix2 k j') + ∑ k : Fin 32, hs (ix2 e k) * w1 (ix2 k j'))
    + ∑ k : Fin 32, a (ix2 e k) * w2 (ix2 k j')) + b (ix2 (0 : Fin 1) j')

def gateK (hd hs a : Mat 1600000 32) (w0 w1 w2 : Mat 32 64) (b : Mat 1 64) (e : Fin 1600000) (j : Fin 32) : EReal :=
  sigmoid (gateT hd hs a w0 w1 w2 b e ⟨j.val, by omega⟩) * softplus (gateT hd hs a w0 w1 w2 b e ⟨32 + j.val, by omega⟩)

-- A product into the zero accumulator, read at an entry, is the 32-term sum over the one contracted axis.
theorem gate_mm_apply (x : FVec Ideal S10000x32 .f32) (w : FVec Ideal S32x64 .f32) (r : Fin 10000) (q : Fin 64) :
    matmul (F := Ideal) dot_S10000x32_S32x64_S10000x64_1_0_0_1_n_n none x w (constant (F := Ideal) S10000x64 .f32 0x00000000#32) (ix2 r q)
      = ∑ k : Fin 32, x (ix2 r k) * w (ix2 k q) := by
  simp only [matmul]
  rw [Ideal.matmul_constant_zero_apply, ← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  rw [show dot_S10000x32_S32x64_S10000x64_1_0_0_1_n_n.lhsIdx (ix2 r q) _ = ix2 r k from Shape.idx_ext₂ (by
      unfold DotDims.lhsIdx
      rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
      rfl) ((dot_S10000x32_S32x64_S10000x64_1_0_0_1_n_n.lhsIdx_val_of_single rfl _ _).trans hk),
    show dot_S10000x32_S32x64_S10000x64_1_0_0_1_n_n.rhsIdx (ix2 r q) _ = ix2 k q from Shape.idx_ext₂ ((dot_S10000x32_S32x64_S10000x64_1_0_0_1_n_n.rhsIdx_val_of_single rfl _ _).trans hk) (by
      unfold DotDims.rhsIdx
      rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
      rfl)]

section
variable {s : Shape} {φ : FTy}
theorem gate_logistic_at (a : FVec Ideal s φ) (i : s.Idx) : logistic a i = Ideal.logistic (a i) := rfl
theorem gate_exp_at (a : FVec Ideal s φ) (i : s.Idx) : exp a i = Ideal.exp (a i) := rfl
theorem gate_log1p_at (a : FVec Ideal s φ) (i : s.Idx) : log1p a i = Ideal.log1p (a i) := rfl
theorem gate_absf_at (a : FVec Ideal s φ) (i : s.Idx) : absf a i = max (a i) (-(a i)) := rfl
end

-- An extended real never differs from itself, so the select takes the softplus branch.
theorem gate_softplus_guarded (z : EReal) :
    Scalar.select (FloatOps.cmpf (F := Ideal) (φ := .f32) .one (z - 0) (z - 0)) (z + 0)
      (max z 0 + Ideal.log1p (Ideal.exp (0 - max (z - 0) (-(z - 0))))) = softplus z := by
  have h : FloatOps.cmpf (F := Ideal) (φ := .f32) .one (z - 0) (z - 0) = 0#1 := by
    show Ideal.cmp .one (z - 0) (z - 0) = 0#1
    simp [Ideal.cmp]
  rw [h, select_zero, zero_sub]
  rfl

theorem gate_hz : (![0, 0] : Fin 2 → Nat) = fun _ => 0 := funext fun a => by fin_cases a <;> rfl

-- The block a grid point leaves, at entry (r, j), when row r of each edge-indexed block is row e of its array and each weight block is the whole weight.
theorem gate_out_apply (A0 A1 A2 : Mat 1600000 32) (x0 x1 x2 : Vec Ideal S10000x32 .f32) (x3 x4 x5 A3 A4 A5 : Vec Ideal S32x64 .f32)
    (x6 A6 : Vec Ideal S1x64 .f32) (r : Fin 10000) (e : Fin 1600000) (j : Fin 32) (h0 : ∀ k : Fin 32, x0 (ix2 r k) = A0 (ix2 e k))
    (h1 : ∀ k : Fin 32, x1 (ix2 r k) = A1 (ix2 e k)) (h2 : ∀ k : Fin 32, x2 (ix2 r k) = A2 (ix2 e k))
    (h3 : x3 = A3) (h4 : x4 = A4) (h5 : x5 = A5) (h6 : x6 = A6) :
    out2_7 x0 x1 x2 x3 x4 x5 x6 (ix2 r j) = gateK A0 A1 A2 A3 A4 A5 A6 e j := by
  subst h3 h4 h5 h6
  unfold out2_7
  rw [View.canon_unit_zero gate_hz]
  simp only [View.ld_unit_zero (S := S10000x32) gate_hz, View.ld_unit_zero (S := S32x64) gate_hz, View.ld_unit_zero (S := S1x64) gate_hz]
  unfold k2_pay1
  simp only [shapeCast_self, mulf_apply, addf_apply, subf_apply, maximumf_apply, select_apply, cmpf_apply, broadcast_apply,
    gate_logistic_at, gate_exp_at, gate_log1p_at, gate_absf_at]
  rw [slice2_axis1_apply 0 _ slices_S10000x64_o0_0_S10000x32 r j ⟨j.val, by omega⟩ (by simp),
    slice2_axis1_apply 32 _ slices_S10000x64_o0_32_S10000x32 r j ⟨32 + j.val, by omega⟩ rfl]
  simp only [addf_apply]
  rw [gate_mm_apply, gate_mm_apply, gate_mm_apply, gate_mm_apply, gate_mm_apply, gate_mm_apply, broadcastTo_1b_ab_apply, broadcastTo_1b_ab_apply]
  simp only [Ideal.ofBits_def, Ideal.ofBits_zero_f32]
  rw [gate_softplus_guarded]
  simp only [h0, h1, h2]
  rfl

-- The first coordinate of point t of the 160, as a 32-bit word, is t.
theorem gate_pt : ∀ t : Fin grid2.N, (BitVec.ofNat 32 (grid2.coords t 0).val).toNat = t.val := by decide +kernel

theorem gate_z : (0#32 : BitVec 32).toNat = 0 := by decide

-- Row r of point t's block of a row-blocked array (the three edge-indexed inputs, the output) is row 10000·t + r of the array.
theorem gate_rows (t : Fin grid2.N) (r : Fin 10000) (e : Fin 1600000) (he : e.val = t.val * 10000 + r.val) :
    ((∀ (A : Mat 1600000 32) (k : Fin 32), ((cfg2.win 0).blk t).view.read (Elt Ideal) A (ix2 r k) = A (ix2 e k))
      ∧ (∀ (A : Mat 1600000 32) (k : Fin 32), ((cfg2.win 1).blk t).view.read (Elt Ideal) A (ix2 r k) = A (ix2 e k))
      ∧ (∀ (A : Mat 1600000 32) (k : Fin 32), ((cfg2.win 2).blk t).view.read (Elt Ideal) A (ix2 r k) = A (ix2 e k))
      ∧ ∀ k : Fin 32, (((cfg2.win 7).blk t).view.emb (ix2 r k) : S1600000x32.Idx) = ix2 e k)
    ∧ ((∀ (A : Mat 1600000 32) (k : Fin 32), ((cfg3.win 0).blk t).view.read (Elt Ideal) A (ix2 r k) = A (ix2 e k))
      ∧ (∀ (A : Mat 1600000 32) (k : Fin 32), ((cfg3.win 1).blk t).view.read (Elt Ideal) A (ix2 r k) = A (ix2 e k))
      ∧ (∀ (A : Mat 1600000 32) (k : Fin 32), ((cfg3.win 2).blk t).view.read (Elt Ideal) A (ix2 r k) = A (ix2 e k))
      ∧ ∀ k : Fin 32, (((cfg3.win 7).blk t).view.emb (ix2 r k) : S1600000x32.Idx) = ix2 e k) := by
  refine ⟨⟨?_, ?_, ?_, ?_⟩, ?_, ?_, ?_, ?_⟩ <;> (first | (intro A k; rw [View.read_apply]; refine congrArg A ?_) | intro k) <;>
    funext a <;> apply Fin.ext <;>
    match a with
    | ⟨0, _⟩ => show (BitVec.ofNat 32 (grid2.coords t 0).val).toNat * 10000 + 1 * r.val = e.val; rw [gate_pt t, he]; omega
    | ⟨1, _⟩ => show (0#32 : BitVec 32).toNat * 32 + 1 * k.val = k.val; rw [gate_z]; omega

theorem gate_whole (t : Fin grid2.N) :
    ((∀ A : Mat 32 64, ((cfg2.win 3).blk t).view.read (Elt Ideal) A = A)
      ∧ (∀ A : Mat 32 64, ((cfg2.win 4).blk t).view.read (Elt Ideal) A = A)
      ∧ (∀ A : Mat 32 64, ((cfg2.win 5).blk t).view.read (Elt Ideal) A = A)
      ∧ ∀ A : Mat 1 64, ((cfg2.win 6).blk t).view.read (Elt Ideal) A = A)
    ∧ ((∀ A : Mat 32 64, ((cfg3.win 3).blk t).view.read (Elt Ideal) A = A)
      ∧ (∀ A : Mat 32 64, ((cfg3.win 4).blk t).view.read (Elt Ideal) A = A)
      ∧ (∀ A : Mat 32 64, ((cfg3.win 5).blk t).view.read (Elt Ideal) A = A)
      ∧ ∀ A : Mat 1 64, ((cfg3.win 6).blk t).view.read (Elt Ideal) A = A) := by
  refine ⟨⟨?_, ?_, ?_, ?_⟩, ?_, ?_, ?_, ?_⟩ <;> intro A <;> funext x <;> rw [View.read_apply] <;> refine congrArg A ?_ <;>
    funext a <;> apply Fin.ext <;>
    match a with
    | ⟨0, _⟩ => show (0#32 : BitVec 32).toNat * _ + 1 * (x 0).val = (x 0).val; rw [gate_z]; omega
    | ⟨1, _⟩ => show (0#32 : BitVec 32).toNat * _ + 1 * (x 1).val = (x 1).val; rw [gate_z]; omega

-- Edge e lies in the output block of point e / 10000, at row e % 10000.
theorem gate_cover (i : S1600000x32.Idx) :
    ∃ t : Fin grid2.N, i ∈ ((cfg2.win 7).blk t).view.set ∧ i ∈ ((cfg3.win 7).blk t).view.set := by
  have hi : (i 0).val < 1600000 := (i 0).isLt
  have hlt : (i 0).val / 10000 < grid2.N := by rw [N_2]; omega
  obtain ⟨⟨-, -, -, h2⟩, -, -, -, h3⟩ := gate_rows ⟨_, hlt⟩ ⟨(i 0).val % 10000, Nat.mod_lt _ (by decide)⟩ (i 0) (Nat.div_add_mod' _ _).symm
  rw [eq_ix2 i]
  exact ⟨⟨_, hlt⟩, h2 (i 1) ▸ View.emb_mem_set _ _, h3 (i 1) ▸ View.emb_mem_set _ _⟩

variable (V : (c : Dev nD) → (b : Ref sig .tc) → Buf (Elt Ideal) ((c : Thread nD τ).loc b))

set_option maxHeartbeats 2000000 in
-- The output's blocks cover it and block t is block t of the whole-array function, so the array ends holding it.
theorem reg2_value (c : Dev nD) (e : Fin 1600000) (j : Fin 32) :
    ((dat2 (F := Ideal) V c).arrAt 7 cfg2.N : Mat 1600000 32) (ix2 e j)
      = gateK (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) e j := by
  refine congrFun ((dat2 (F := Ideal) V c).arrAt_eq_of_cover 7
    (fun i => gateK _ _ _ _ _ _ _ (i 0) (i 1))
    (fun t _ => funext fun y => ?_) fun i => (gate_cover i).imp fun t h => ⟨flush2_7 t, h.1⟩) (ix2 e j)
  obtain ⟨r, q, rfl⟩ : ∃ (r : Fin 10000) (q : Fin 32), y = ix2 r q := ⟨y 0, y 1, eq_ix2 y⟩
  have ht : t.val < 160 := lt_of_lt_of_eq t.isLt N_2
  obtain ⟨⟨a0, a1, a2, a7⟩, -⟩ := gate_rows t r ⟨t.val * 10000 + r.val, by omega⟩ rfl
  obtain ⟨⟨a3, a4, a5, a6⟩, -⟩ := gate_whole t
  rw [View.read_apply, a7 q]
  show (cfg2.win 7).cut (grid2.coords t) ((dat2 (F := Ideal) V c).after 7 t) (ix2 r q) = _
  rw [after2_7]
  exact gate_out_apply _ _ _ _ _ _ _ _ _ _ _ _ _ _ r _ q (a0 _) (a1 _) (a2 _) (a3 _) (a4 _) (a5 _) (a6 _)

set_option maxHeartbeats 2000000 in
-- The second gate launch runs the same body over its own entry arrays.
theorem reg3_value (c : Dev nD) (e : Fin 1600000) (j : Fin 32) :
    ((dat3 (F := Ideal) V c).arrAt 7 cfg3.N : Mat 1600000 32) (ix2 e j)
      = gateK (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) e j := by
  refine congrFun ((dat3 (F := Ideal) V c).arrAt_eq_of_cover 7
    (fun i => gateK _ _ _ _ _ _ _ (i 0) (i 1))
    (fun t _ => funext fun y => ?_) fun i => (gate_cover i).imp fun t h => ⟨flush3_7 t, h.2⟩) (ix2 e j)
  obtain ⟨r, q, rfl⟩ : ∃ (r : Fin 10000) (q : Fin 32), y = ix2 r q := ⟨y 0, y 1, eq_ix2 y⟩
  have ht : t.val < 160 := lt_of_lt_of_eq t.isLt N_2
  obtain ⟨-, a0, a1, a2, a7⟩ := gate_rows t r ⟨t.val * 10000 + r.val, by omega⟩ rfl
  obtain ⟨-, a3, a4, a5, a6⟩ := gate_whole t
  rw [View.read_apply, a7 q]
  show (cfg3.win 7).cut (grid3.coords t) ((dat3 (F := Ideal) V c).after 7 t) (ix2 r q) = _
  rw [after3_7]
  exact gate_out_apply _ _ _ _ _ _ _ _ _ _ _ _ _ _ r _ q (a0 _) (a1 _) (a2 _) (a3 _) (a4 _) (a5 _) (a6 _)

end Cert.KernelIdeal.KV

end
-- ==== Proof.KGateW.lean ====
import proofs.«403917_j43920335569181_3_alg».proof.Proof.KArrays
import Idealize.ShloMosaic.Lib.ValueLayout

noncomputable section

namespace Cert.KernelIdeal.KV

open Idealize.ShloMosaic Idealize.ShloMosaic.TcCoe Idealize.ShloMosaic.ValueIdx Idealize.SL.Sem
open Cert.KernelIdeal Cert.KernelIdeal.Gen Cert.Spec Cert.Net

section Generic
variable {α : Type}

private def partT (w : S2x32x96.Idx → α) (l off : Nat) (h1 : S2x32x96.Slices ![l, 0, 0] S1x32x96 := by decide)
    (h3 : S32x96.Slices ![0, off] S32x32 := by decide) : S32x32.Idx → α :=
  transpose S32x32 [1, 0] (extractStridedSlice S32x32 ![0, off]
    (shapeCast S32x96 (extractStridedSlice S1x32x96 ![l, 0, 0] w h1) shapeCasts_S1x32x96_S32x96) h3) transposes_S32x32_S32x32_1_0

-- Entry (k, j) of the transposed part is W[l][j, off + k]: each layout operation moves the index as named.
private theorem partT_apply (w : S2x32x96.Idx → α) {l off : Nat} (h1 : S2x32x96.Slices ![l, 0, 0] S1x32x96) (h3 : S32x96.Slices ![0, off] S32x32)
    (k j : Fin 32) (l' : Fin 2) (kk : Fin 96) (hl : l'.val = l) (hk : kk.val = off + k.val) :
    partT w l off h1 h3 (ix2 k j) = w (ix3 l' j kk) := by
  unfold partT
  exact (transpose_ix2_apply _ _ k j).trans <| (slice2_axis1_apply off _ h3 j k kk hk).trans <|
    (shapeCast_1ab_ab_apply _ _ j kk).trans <| extractStridedSlice_apply _ w h1 _ (ix3 l' j kk) fun a =>
      match a with
      | ⟨0, _⟩ => hl.trans (Nat.add_zero _).symm
      | ⟨1, _⟩ => (Nat.zero_add _).symm
      | ⟨2, _⟩ => (Nat.zero_add _).symm

private def fusedW (wf ws : S2x32x96.Idx → α) (l off : Nat) (h1 : S2x32x96.Slices ![l, 0, 0] S1x32x96 := by decide)
    (h3 : S32x96.Slices ![0, off] S32x32 := by decide) : S32x64.Idx → α :=
  concatenate S32x64 1 [⟨S32x32, partT wf l off h1 h3⟩, ⟨S32x32, partT ws l off h1 h3⟩] concatenates_S32x32_S32x32_S32x64_d1

-- Columns below 32 read the first part, columns from 32 on the second, 32 less.
private theorem fusedW_apply (wf ws : S2x32x96.Idx → α) {l off : Nat} (h1 : S2x32x96.Slices ![l, 0, 0] S1x32x96) (h3 : S32x96.Slices ![0, off] S32x32)
    (k j : Fin 32) (l' : Fin 2) (kk : Fin 96) (hl : l'.val = l) (hk : kk.val = off + k.val) :
    fusedW wf ws l off h1 h3 (ix2 k ⟨j.val, by omega⟩) = wf (ix3 l' j kk) ∧
      fusedW wf ws l off h1 h3 (ix2 k ⟨32 + j.val, by omega⟩) = ws (ix3 l' j kk) := by
  unfold fusedW
  exact ⟨(concatenate_pair_apply_left (t := S32x64) (s₁ := S32x32) (s₂ := S32x32) 1 _ _ _ _ rfl (ix2 k j)
      fun b => match b with | ⟨0, _⟩ => rfl | ⟨1, _⟩ => rfl).trans (partT_apply wf h1 h3 k j l' kk hl hk),
    (concatenate_pair_apply_right (t := S32x64) (s₁ := S32x32) (s₂ := S32x32) 1 _ _ _ _ rfl rfl (ix2 k j)
      (fun b hb => match b with | ⟨0, _⟩ => rfl | ⟨1, _⟩ => absurd rfl hb) (Nat.add_comm _ _)).trans
      (partT_apply ws h1 h3 k j l' kk hl hk)⟩

private def fusedB (bf bs : S2x32.Idx → α) (l : Nat) (h1 : S2x32.Slices ![l, 0] S1x32 := by decide) : S1x64.Idx → α :=
  shapeCast S1x64 (concatenate S64 0 [⟨S32, shapeCast S32 (extractStridedSlice S1x32 ![l, 0] bf h1) shapeCasts_S1x32_S32⟩,
    ⟨S32, shapeCast S32 (extractStridedSlice S1x32 ![l, 0] bs h1) shapeCasts_S1x32_S32⟩] concatenates_S32_S32_S64_d0) shapeCasts_S64_S1x64

-- Entries below 32 read row l of the first bias, entries from 32 on row l of the second.
private theorem fusedB_apply (bf bs : S2x32.Idx → α) {l : Nat} (h1 : S2x32.Slices ![l, 0] S1x32) (j : Fin 32) (l' : Fin 2) (hl : l'.val = l) :
    fusedB bf bs l h1 (ix2 (0 : Fin 1) ⟨j.val, by omega⟩) = bf (ix2 l' j) ∧
      fusedB bf bs l h1 (ix2 (0 : Fin 1) ⟨32 + j.val, by omega⟩) = bs (ix2 l' j) := by
  have row (b : S2x32.Idx → α) :
      shapeCast S32 (extractStridedSlice S1x32 ![l, 0] b h1) shapeCasts_S1x32_S32 (ix1 j) = b (ix2 l' j) :=
    (shapeCast_1a_a_apply _ _ j).trans (slice2_axis0_apply l b h1 0 j l' (hl.trans (Nat.add_zero _).symm))
  unfold fusedB
  exact ⟨(shapeCast_a_1a_apply _ _ 0 _).trans <| (concatenate_pair_apply_left (t := S64) (s₁ := S32) (s₂ := S32) 0 _ _ _ (ix1 _) rfl
      (ix1 j) fun b => match b with | ⟨0, _⟩ => rfl).trans (row bf),
    (shapeCast_a_1a_apply _ _ 0 _).trans <| (concatenate_pair_apply_right (t := S64) (s₁ := S32) (s₂ := S32) 0 _ _ _ (ix1 _) rfl rfl
      (ix1 j) (fun b hb => match b with | ⟨0, _⟩ => absurd rfl hb) (Nat.add_comm _ _)).trans (row bs)⟩

variable (t : Shape) (a : Fin t.rank) (s₁ s₂ : Shape) (x₁ : s₁.Idx → α) (x₂ : s₂.Idx → α) (h : Shape.Concatenates [s₁, s₂] t a)

-- Two arrays side by side with the operands as plain arguments, so that an equation can be used inside them.
private def cat2 : t.Idx → α := concatenate t a [⟨s₁, x₁⟩, ⟨s₂, x₂⟩] h

private theorem cat2_intro : concatenate t a [⟨s₁, x₁⟩, ⟨s₂, x₂⟩] h = cat2 t a s₁ s₂ x₁ x₂ h := rfl

end Generic

variable (m : (ℓ : Loc nD τ sig) → Buf (Elt Ideal) ℓ) (ρ : Dev nD → PrngReg)

-- A buffer written by none of the first three kernel calls and by no host operation before the fourth still holds the program's input.
private theorem kept_of {b : Ref sig .tc} (c : Dev nD) (h0 : ∀ w, Pipeline.arrRef spec0 w ≠ b) (h1 : ∀ w, Pipeline.arrRef spec1 w ≠ b)
    (h2 : ∀ w, Pipeline.arrRef spec2 w ≠ b)
    (k : [hostOps0, hostOps1, hostOps2].Forall (·.Forall fun op : HloOp τ sig (Elt Ideal) => Proc.devRef .tc b ∉ op.writes)) :
    W4 m ρ c (no_index (Proc.devRef .tc b)) = m ((c : Thread nD τ).loc b) ∧
      W6 m ρ c (no_index (Proc.devRef .tc b)) = m ((c : Thread nD τ).loc b) :=
  have a (ops : List (HloOp τ sig (Elt Ideal))) (X : Valuation τ sig (Elt Ideal)) h :=
    StableHlo.after_of_forall_not_mem (b := Proc.devRef .tc b) ops X (List.forall_iff_forall_mem.mp h)
  have h4 : W4 m ρ c (Proc.devRef .tc b) = m ((c : Thread nD τ).loc b) :=
    (W4_of_ne m ρ c b h1).trans <| (a hostOps1 _ k.2.1).trans <| (W2_of_ne m ρ c b h0).trans (a hostOps0 _ k.1)
  ⟨h4, (W6_of_ne m ρ c b h2).trans <| (a hostOps2 _ k.2.2).trans h4⟩

private theorem arg_kept {b : Ref sig .tc} (hb : b ∈ [main_arg15, main_arg16, main_arg17, main_arg18]) (c : Dev nD) :
    W4 m ρ c (no_index (Proc.devRef .tc b)) = m ((c : Thread nD τ).loc b) ∧
      W6 m ρ c (no_index (Proc.devRef .tc b)) = m ((c : Thread nD τ).loc b) := by
  fin_cases hb <;> refine kept_of m ρ c (by decide) (by decide) (by decide) ?_ <;>
  · simp only [hostOps0, hostOps1, hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

-- Each fused array is the layout term over the argument arrays: the operations producing it are unfolded and the arguments traced to the input.
private theorem V5_fused (c : Dev nD) :
    (V5 m ρ c main_call0_v36 : Mat 32 64) = fusedW (KArgs m c).wf (KArgs m c).ws 0 0 ∧
    (V5 m ρ c main_call0_v39 : Mat 32 64) = fusedW (KArgs m c).wf (KArgs m c).ws 0 32 ∧
    (V5 m ρ c main_call0_v42 : Mat 32 64) = fusedW (KArgs m c).wf (KArgs m c).ws 0 64 ∧
    (V5 m ρ c main_call0_v44 : Mat 1 64) = fusedB (KArgs m c).bf (KArgs m c).bs 0 := by
  refine ⟨?_, ?_, ?_, ?_⟩ <;>
  · dsimp only [V5, W5]
    after_results_simp
    simp only [cat2_intro]
    after_results_simp
    simp (disch := decide) only [arg_kept m ρ]
    rfl

private theorem V7_fused (c : Dev nD) :
    (V7 m ρ c main_call0_v68 : Mat 32 64) = fusedW (KArgs m c).wf (KArgs m c).ws 1 0 ∧
    (V7 m ρ c main_call0_v71 : Mat 32 64) = fusedW (KArgs m c).wf (KArgs m c).ws 1 32 ∧
    (V7 m ρ c main_call0_v74 : Mat 32 64) = fusedW (KArgs m c).wf (KArgs m c).ws 1 64 ∧
    (V7 m ρ c main_call0_v76 : Mat 1 64) = fusedB (KArgs m c).bf (KArgs m c).bs 1 := by
  refine ⟨?_, ?_, ?_, ?_⟩ <;>
  · dsimp only [V7, W7]
    after_results_simp
    simp only [cat2_intro]
    after_results_simp
    simp (disch := decide) only [arg_kept m ρ]
    rfl

theorem w0f (c : Dev nD) (k j : Fin 32) :
    (V5 m ρ c main_call0_v36 : Mat 32 64) (ix2 k ⟨j.val, by omega⟩) = (KArgs m c).wf (ix3 (0 : Fin 2) j ⟨k.val, by omega⟩) :=
  (congrFun (V5_fused m ρ c).1 _).trans (fusedW_apply _ _ _ _ k j 0 _ rfl (Nat.zero_add _).symm).1

theorem w0s (c : Dev nD) (k j : Fin 32) :
    (V5 m ρ c main_call0_v36 : Mat 32 64) (ix2 k ⟨32 + j.val, by omega⟩) = (KArgs m c).ws (ix3 (0 : Fin 2) j ⟨k.val, by omega⟩) :=
  (congrFun (V5_fused m ρ c).1 _).trans (fusedW_apply _ _ _ _ k j 0 _ rfl (Nat.zero_add _).symm).2

theorem w1f (c : Dev nD) (k j : Fin 32) :
    (V5 m ρ c main_call0_v39 : Mat 32 64) (ix2 k ⟨j.val, by omega⟩) = (KArgs m c).wf (ix3 (0 : Fin 2) j ⟨32 + k.val, by omega⟩) :=
  (congrFun (V5_fused m ρ c).2.1 _).trans (fusedW_apply _ _ _ _ k j 0 _ rfl rfl).1

theorem w1s (c : Dev nD) (k j : Fin 32) :
    (V5 m ρ c main_call0_v39 : Mat 32 64) (ix2 k ⟨32 + j.val, by omega⟩) = (KArgs m c).ws (ix3 (0 : Fin 2) j ⟨32 + k.val, by omega⟩) :=
  (congrFun (V5_fused m ρ c).2.1 _).trans (fusedW_apply _ _ _ _ k j 0 _ rfl rfl).2

theorem w2f (c : Dev nD) (k j : Fin 32) :
    (V5 m ρ c main_call0_v42 : Mat 32 64) (ix2 k ⟨j.val, by omega⟩) = (KArgs m c).wf (ix3 (0 : Fin 2) j ⟨64 + k.val, by omega⟩) :=
  (congrFun (V5_fused m ρ c).2.2.1 _).trans (fusedW_apply _ _ _ _ k j 0 _ rfl rfl).1

theorem w2s (c : Dev nD) (k j : Fin 32) :
    (V5 m ρ c main_call0_v42 : Mat 32 64) (ix2 k ⟨32 + j.val, by omega⟩) = (KArgs m c).ws (ix3 (0 : Fin 2) j ⟨64 + k.val, by omega⟩) :=
  (congrFun (V5_fused m ρ c).2.2.1 _).trans (fusedW_apply _ _ _ _ k j 0 _ rfl rfl).2

theorem bbf (c : Dev nD) (j : Fin 32) :
    (V5 m ρ c main_call0_v44 : Mat 1 64) (ix2 (0 : Fin 1) ⟨j.val, by omega⟩) = (KArgs m c).bf (ix2 (0 : Fin 2) j) :=
  (congrFun (V5_fused m ρ c).2.2.2 _).trans (fusedB_apply _ _ _ j 0 rfl).1

theorem bbs (c : Dev nD) (j : Fin 32) :
    (V5 m ρ c main_call0_v44 : Mat 1 64) (ix2 (0 : Fin 1) ⟨32 + j.val, by omega⟩) = (KArgs m c).bs (ix2 (0 : Fin 2) j) :=
  (congrFun (V5_fused m ρ c).2.2.2 _).trans (fusedB_apply _ _ _ j 0 rfl).2

theorem w0f' (c : Dev nD) (k j : Fin 32) :
    (V7 m ρ c main_call0_v68 : Mat 32 64) (ix2 k ⟨j.val, by omega⟩) = (KArgs m c).wf (ix3 (1 : Fin 2) j ⟨k.val, by omega⟩) :=
  (congrFun (V7_fused m ρ c).1 _).trans (fusedW_apply _ _ _ _ k j 1 _ rfl (Nat.zero_add _).symm).1

theorem w0s' (c : Dev nD) (k j : Fin 32) :
    (V7 m ρ c main_call0_v68 : Mat 32 64) (ix2 k ⟨32 + j.val, by omega⟩) = (KArgs m c).ws (ix3 (1 : Fin 2) j ⟨k.val, by omega⟩) :=
  (congrFun (V7_fused m ρ c).1 _).trans (fusedW_apply _ _ _ _ k j 1 _ rfl (Nat.zero_add _).symm).2

theorem w1f' (c : Dev nD) (k j : Fin 32) :
    (V7 m ρ c main_call0_v71 : Mat 32 64) (ix2 k ⟨j.val, by omega⟩) = (KArgs m c).wf (ix3 (1 : Fin 2) j ⟨32 + k.val, by omega⟩) :=
  (congrFun (V7_fused m ρ c).2.1 _).trans (fusedW_apply _ _ _ _ k j 1 _ rfl rfl).1

theorem w1s' (c : Dev nD) (k j : Fin 32) :
    (V7 m ρ c main_call0_v71 : Mat 32 64) (ix2 k ⟨32 + j.val, by omega⟩) = (KArgs m c).ws (ix3 (1 : Fin 2) j ⟨32 + k.val, by omega⟩) :=
  (congrFun (V7_fused m ρ c).2.1 _).trans (fusedW_apply _ _ _ _ k j 1 _ rfl rfl).2

theorem w2f' (c : Dev nD) (k j : Fin 32) :
    (V7 m ρ c main_call0_v74 : Mat 32 64) (ix2 k ⟨j.val, by omega⟩) = (KArgs m c).wf (ix3 (1 : Fin 2) j ⟨64 + k.val, by omega⟩) :=
  (congrFun (V7_fused m ρ c).2.2.1 _).trans (fusedW_apply _ _ _ _ k j 1 _ rfl rfl).1

theorem w2s' (c : Dev nD) (k j : Fin 32) :
    (V7 m ρ c main_call0_v74 : Mat 32 64) (ix2 k ⟨32 + j.val, by omega⟩) = (KArgs m c).ws (ix3 (1 : Fin 2) j ⟨64 + k.val, by omega⟩) :=
  (congrFun (V7_fused m ρ c).2.2.1 _).trans (fusedW_apply _ _ _ _ k j 1 _ rfl rfl).2

theorem bbf' (c : Dev nD) (j : Fin 32) :
    (V7 m ρ c main_call0_v76 : Mat 1 64) (ix2 (0 : Fin 1) ⟨j.val, by omega⟩) = (KArgs m c).bf (ix2 (1 : Fin 2) j) :=
  (congrFun (V7_fused m ρ c).2.2.2 _).trans (fusedB_apply _ _ _ j 1 rfl).1

theorem bbs' (c : Dev nD) (j : Fin 32) :
    (V7 m ρ c main_call0_v76 : Mat 1 64) (ix2 (0 : Fin 1) ⟨32 + j.val, by omega⟩) = (KArgs m c).bs (ix2 (1 : Fin 2) j) :=
  (congrFun (V7_fused m ρ c).2.2.2 _).trans (fusedB_apply _ _ _ j 1 rfl).2

end Cert.KernelIdeal.KV

end
-- ==== Proof.LibRows.lean ====
import Idealize.ShloMosaic.PureOps.Ideal
import Idealize.ShloMosaic.Lib.ValueIdx

noncomputable section

open scoped BigOperators

namespace Cert.LibRows

open Idealize.ShloMosaic Idealize.ShloMosaic.ValueIdx

section RowGather
variable {α : Type}

abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

-- Axis 0 is collapsed and named by the start index; axis 1 is the offset axis, started at 0.
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

section RowScatter

abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

-- The window of update (p, q) is the single entry (idx[p, 0], q), inside the operand exactly when the word names a row.
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have := r.isLt
    have := q.isLt
    rw [dif_pos (Fin.forall_fin_two.2 ⟨by show 0 ≤ _ + _ ∧ _ + _ < (n : Int); rw [h0, w0, hr]; omega,
      by show 0 ≤ _ + _ ∧ _ + _ < (c : Int); rw [h1, w1]; omega⟩)]
    refine congrArg some ((eq_ix2 _).trans (congrArg₂ ix2 (Fin.ext ?_) (Fin.ext ?_)))
    · show Int.toNat _ = r.val
      rw [h0, w0, hr]; omega
    · show ((rowScatterDims n e c wf).start (ix2 p q) idx 1 + ((rowScatterDims n e c wf).window (ix2 p q) 1 : Int)).toNat = q.val
      rw [h1, w1]; omega

-- The updates landing on (r, q) are those of column q whose word is r.
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

end Cert.LibRows

end
-- ==== Proof.KGateTake.lean ====
import proofs.«403917_j43920335569181_3_alg».proof.Proof.Gen.KernelIdeal.Frame
import proofs.«403917_j43920335569181_3_alg».proof.Proof.Spec
import proofs.«403917_j43920335569181_3_alg».proof.Proof.LibRows
import Idealize.ShloMosaic.Lib.ValueLayout
import Idealize.ShloMosaic.Lib.ReduceAll
import Idealize.ShloMosaic.Lib.StableHlo.Predicate

noncomputable section

namespace Cert.KernelIdeal.KV

open Idealize.ShloMosaic Idealize.ShloMosaic.ValueIdx
open Cert.KernelIdeal Cert.KernelIdeal.Gen Cert.Spec

-- A fold by "and" from 1 over words that are all 1 stays 1.
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_ones f hf l

theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_ones x hx _

def idxRow0 (ei : IVec S2x1600000 32) : IVec S1600000 32 :=
  shapeCast S1600000 (extractStridedSlice S1x1600000 ![0, 0] ei slices_S2x1600000_S1x1600000_0_0) shapeCasts_S1x1600000_S1600000

def idxRow1 (ei : IVec S2x1600000 32) : IVec S1600000 32 :=
  shapeCast S1600000 (extractStridedSlice S1x1600000 ![1, 0] ei slices_S2x1600000_S1x1600000_1_0) shapeCasts_S1x1600000_S1600000

theorem idxRow0_apply (ei : IVec S2x1600000 32) (e : Fin 1600000) : idxRow0 ei (ix1 e) = ei (ix2 (0 : Fin 2) e) :=
  (shapeCast_1a_a_apply _ _ e).trans (slice2_axis0_apply 0 ei _ (0 : Fin 1) e (0 : Fin 2) rfl)

theorem idxRow1_apply (ei : IVec S2x1600000 32) (e : Fin 1600000) : idxRow1 ei (ix1 e) = ei (ix2 (1 : Fin 2) e) :=
  (shapeCast_1a_a_apply _ _ e).trans (slice2_axis0_apply 1 ei _ (0 : Fin 1) e (1 : Fin 2) rfl)

def wrapWords (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 50000#32))) idx

def colWords (idx : IVec S1600000 32) : IVec S1600000x1 32 :=
  broadcastInDim S1600000x1 ![0] bcast_S1600000_S1600000x1_0 (wrapWords idx)

def inTable (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

def takeRows (x : Vec Ideal S50000x32 .f32) (idx : IVec S1600000 32) : Vec Ideal S1600000x32 .f32 :=
  select (broadcastInDim S1600000x32 ![0] bcast_S1600000_S1600000x32_0 (inTable (colWords idx)))
    (Host.gather gather_S50000x32_S1600000x1_S1600000x32_1_0_n_n_0_1_132 x (colWords idx))
    (broadcastInDim S1600000x32 ![] bcast_S_S1600000x32 (constant (F := Ideal) S_ .f32 0x7FC00000#32))

-- A non-negative word is not below 0, so the wrap leaves it.
theorem wrapWords_apply (idx : IVec S1600000 32) (i : S1600000.Idx) (h0 : 0 ≤ (idx i).toInt) : wrapWords idx i = idx i := by
  unfold wrapWords
  rw [select_apply]
  have hc : ¬ cmpi .slt idx (broadcastInDim S1600000 ![] bcast_S_S1600000 (constantI S_ 32 0#32)) i = 1#1 := by
    intro h
    have h' : IntOp.cmpi .slt (idx i) 0#32 = 1#1 := h
    have h2 := IntOp.cmpi_slt.mp h'
    have hz : (0#32 : BitVec 32).toInt = 0 := by decide
    omega
  rw [eq_zero_of_ne_one hc, select_zero]

theorem colWords_ix (idx : IVec S1600000 32) (e : Fin 1600000) : colWords idx (ix2 e (0 : Fin 1)) = wrapWords idx (ix1 e) :=
  broadcastInDim_apply _ _ _ _ (ix1 e) (fun a => by
    match a with
    | ⟨0, _⟩ =>
      show e.val = if (1600000 : ℕ) = 1 then 0 else e.val
      rw [if_neg (by decide)])

-- Every word of the column lies in [0, 49999], so both comparisons are 1 everywhere and so is their reduction.
theorem inTable_one (idx : IVec S1600000 32) (hidx : ∀ i, 0 ≤ (idx i).toInt ∧ (idx i).toInt < 50000) (j : S1600000.Idx) :
    inTable (colWords idx) j = 1#1 := by
  unfold inTable
  refine reduce_andi_ones _ _ _ _ j (fun i => ?_) rfl
  have hr : 0 ≤ (colWords idx i).toInt ∧ (colWords idx i).toInt < 50000 := by
    unfold colWords broadcastInDim
    rw [wrapWords_apply idx _ (hidx _).1]
    exact hidx _
  show IntOp.andi (IntOp.cmpi .sge (colWords idx i) 0#32) (IntOp.cmpi .sle (colWords idx i) 49999#32) = 1#1
  have hz : (0#32 : BitVec 32).toInt = 0 := by decide
  have hh : (49999#32 : BitVec 32).toInt = 49999 := by decide
  exact IntOp.andi_eq_one.mpr ⟨IntOp.cmpi_sge.mpr (by omega), IntOp.cmpi_sle.mpr (by omega)⟩

-- With the words a row of an argument whose words lie inside the table, the fill is never chosen and the gathered row is the table's row at the word.
theorem takeRows_apply (x : Vec Ideal S50000x32 .f32) (idx : IVec S1600000 32) (ei : IVec S2x1600000 32) (b : Fin 2)
    (h : ∀ e, idx (ix1 e) = ei (ix2 b e)) (hidx : ∀ i, 0 ≤ (ei i).toInt ∧ (ei i).toInt < 50000) (e : Fin 1600000) (k : Fin 32) :
    takeRows x idx (ix2 e k) = x (ix2 (rowOf 50000 (by omega) (ei (ix2 b e))) k) := by
  have hi : ∀ i, 0 ≤ (idx i).toInt ∧ (idx i).toInt < 50000 := fun i => by
    obtain ⟨e', rfl⟩ : ∃ e' : Fin 1600000, i = ix1 e' := ⟨i 0, eq_ix1 i⟩
    rw [h]; exact hidx _
  unfold takeRows
  rw [select_apply]
  have hm : broadcastInDim S1600000x32 ![0] bcast_S1600000_S1600000x32_0 (inTable (colWords idx)) (ix2 e k) = 1#1 := by
    unfold broadcastInDim
    exact inTable_one idx hi _
  rw [hm, select_one]
  exact (Cert.LibRows.rowGather_apply (n := 50000) (e := 1600000) (c := 32) (by omega)
    gather_S50000x32_S1600000x1_S1600000x32_1_0_n_n_0_1_132_wf x (colWords idx) e k).trans
    (congrArg (fun w : BitVec 32 => x (ix2 (rowOf 50000 (by omega) w) k))
      (((colWords_ix idx e).trans (wrapWords_apply idx _ (hi _).1)).trans (h e)))

end Cert.KernelIdeal.KV

end
-- ==== Proof.KGateHost2.lean ====
import proofs.«403917_j43920335569181_3_alg».proof.Proof.KArrays
import proofs.«403917_j43920335569181_3_alg».proof.Proof.KGateTake

set_option maxHeartbeats 4000000

noncomputable section

namespace Cert.KernelIdeal.KV

open Idealize.ShloMosaic Idealize.ShloMosaic.TcCoe Idealize.ShloMosaic.ValueIdx Idealize.SL.Sem
open Cert.KernelIdeal Cert.KernelIdeal.Gen Cert.Spec Cert.Net

variable (m : (ℓ : Loc nD τ sig) → Buf (Elt Ideal) ℓ) (ρ : Dev nD → PrngReg)

section Casts
variable {T : BufTy}

theorem gh_ofBuf_toBuf (x : StableHlo.TRef sig T) (v : T.Contents (Elt Ideal)) : x.ofBuf (x.toBuf v) = v := by
  obtain ⟨r, rfl, h2, h3⟩ := x
  rfl

theorem gh_ofBuf_of_heq (x : StableHlo.TRef sig T) (v : x.ref.ty.Contents (Elt Ideal)) (w : T.Contents (Elt Ideal))
    (h : HEq v w) : x.ofBuf v = w := by
  obtain ⟨r, rfl, h2, h3⟩ := x
  exact eq_of_heq h

end Casts

-- Every operation of a host stretch writes one reference, and none of them is the buffer asked about.
theorem gh_kept (c : Dev nD) :
    W1 m ρ c (Proc.devRef .tc main_arg1) = W0 m ρ c (Proc.devRef .tc main_arg1)
    ∧ W3 m ρ c (Proc.devRef .tc main_arg1) = W2 m ρ c (Proc.devRef .tc main_arg1)
    ∧ W3 m ρ c (Proc.devRef .tc main_call0_v6) = W2 m ρ c (Proc.devRef .tc main_call0_v6)
    ∧ W5 m ρ c (Proc.devRef .tc main_call0_v6) = W4 m ρ c (Proc.devRef .tc main_call0_v6)
    ∧ W5 m ρ c (Proc.devRef .tc main_call0_v13) = W4 m ρ c (Proc.devRef .tc main_call0_v13) := by
  refine ⟨?_, ?_, ?_, ?_, ?_⟩ <;> (
    refine StableHlo.after_of_forall_not_mem _ _ (List.forall_iff_forall_mem.mp ?_)
    simp only [hostOps0, hostOps1, hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))

theorem gh_W4_arg1 (c : Dev nD) : W4 m ρ c (Proc.devRef .tc main_arg1) = (KArgs m c).ei :=
  (W4_of_ne m ρ c main_arg1 (by decide)).trans
    ((gh_kept m ρ c).2.1.trans ((W2_of_ne m ρ c main_arg1 (by decide)).trans (gh_kept m ρ c).1))

theorem gh_W4_v6 (c : Dev nD) : W4 m ρ c (Proc.devRef .tc main_call0_v6) = Kh0 m ρ c :=
  (W4_of_ne m ρ c main_call0_v6 (by decide)).trans (gh_kept m ρ c).2.2.1

theorem ea0 (c : Dev nD) : (V5 m ρ c main_call0_v13 : Mat 1600000 32) = Kea m ρ c :=
  (gh_kept m ρ c).2.2.2.2

theorem V5_v18 (c : Dev nD) :
    (V5 m ρ c main_call0_v18 : Mat 1600000 32) = takeRows (Kh0 m ρ c) (idxRow1 (KArgs m c).ei) := by
  refine (gh_ofBuf_of_heq (StableHlo.TRef.of main_call0_v18 : StableHlo.TRef sig ⟨S1600000x32, .f32⟩)
    (W5 m ρ c (Proc.devRef .tc main_call0_v18)) _ HEq.rfl).symm.trans ?_
  show (StableHlo.TRef.of main_call0_v18 : StableHlo.TRef sig ⟨S1600000x32, .f32⟩).ofBuf
      (StableHlo.after hostOps2 (W4 m ρ c) (Proc.devRef .tc main_call0_v18)) = _
  after_results_simp
  simp only [gh_ofBuf_toBuf]
  rw [gh_ofBuf_of_heq (StableHlo.TRef.of main_call0_v6 : StableHlo.TRef sig ⟨S50000x32, .f32⟩) _ (Kh0 m ρ c)
      (heq_of_eq (gh_W4_v6 m ρ c)),
    gh_ofBuf_of_heq (StableHlo.TRef.of main_arg1 : StableHlo.TRef sig ⟨S2x1600000, .i32⟩) _ (KArgs m c).ei
      (heq_of_eq (gh_W4_arg1 m ρ c))]
  generalize hI : (StableHlo.TRef.of main_call0_v17 : StableHlo.TRef sig ⟨S1600000, .i32⟩).ofBuf _ = I
  have hI' : I = idxRow1 (KArgs m c).ei := hI.symm.trans rfl
  subst hI'
  unfold takeRows inTable colWords wrapWords
  rfl

theorem V5_v19 (c : Dev nD) :
    (V5 m ρ c main_call0_v19 : Mat 1600000 32) = takeRows (Kh0 m ρ c) (idxRow0 (KArgs m c).ei) := by
  refine (gh_ofBuf_of_heq (StableHlo.TRef.of main_call0_v19 : StableHlo.TRef sig ⟨S1600000x32, .f32⟩)
    (W5 m ρ c (Proc.devRef .tc main_call0_v19)) _ HEq.rfl).symm.trans ?_
  show (StableHlo.TRef.of main_call0_v19 : StableHlo.TRef sig ⟨S1600000x32, .f32⟩).ofBuf
      (StableHlo.after hostOps2 (W4 m ρ c) (Proc.devRef .tc main_call0_v19)) = _
  after_results_simp
  simp only [gh_ofBuf_toBuf]
  rw [gh_ofBuf_of_heq (StableHlo.TRef.of main_call0_v6 : StableHlo.TRef sig ⟨S50000x32, .f32⟩) _ (Kh0 m ρ c)
      (heq_of_eq (gh_W4_v6 m ρ c)),
    gh_ofBuf_of_heq (StableHlo.TRef.of main_arg1 : StableHlo.TRef sig ⟨S2x1600000, .i32⟩) _ (KArgs m c).ei
      (heq_of_eq (gh_W4_arg1 m ρ c))]
  generalize hI : (StableHlo.TRef.of main_call0_v15 : StableHlo.TRef sig ⟨S1600000, .i32⟩).ofBuf _ = I
  have hI' : I = idxRow0 (KArgs m c).ei := hI.symm.trans rfl
  subst hI'
  unfold takeRows inTable colWords wrapWords
  rfl

theorem hd0 (c : Dev nD) (hidx : ∀ i, 0 ≤ ((KArgs m c).ei i).toInt ∧ ((KArgs m c).ei i).toInt < 50000) (e : Fin 1600000) (k : Fin 32) :
    (V5 m ρ c main_call0_v18 : Mat 1600000 32) (ix2 e k) = Kh0 m ρ c (ix2 (dstRow (KArgs m c) e) k) := by
  rw [V5_v18 m ρ c]
  exact takeRows_apply _ _ _ 1 (idxRow1_apply _) hidx e k

theorem hs0 (c : Dev nD) (hidx : ∀ i, 0 ≤ ((KArgs m c).ei i).toInt ∧ ((KArgs m c).ei i).toInt < 50000) (e : Fin 1600000) (k : Fin 32) :
    (V5 m ρ c main_call0_v19 : Mat 1600000 32) (ix2 e k) = Kh0 m ρ c (ix2 (srcRow (KArgs m c) e) k) := by
  rw [V5_v19 m ρ c]
  exact takeRows_apply _ _ _ 0 (idxRow0_apply _) hidx e k

end Cert.KernelIdeal.KV

end
-- ==== Proof.KGateHost3.lean ====
import proofs.«403917_j43920335569181_3_alg».proof.Proof.KGateHost2

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec Cert.Net

variable (m : (ℓ : Loc nD τ sig) → Buf (Elt Ideal) ℓ) (ρ : Dev nD → PrngReg)

theorem W6_v6 (c : Dev nD) : W6 m ρ c (Proc.devRef .tc main_call0_v6) = Kh0 m ρ c :=
  (W6_of_ne m ρ c main_call0_v6 (by decide)).trans ((gh_kept m ρ c).2.2.2.1.trans (gh_W4_v6 m ρ c))

theorem W6_v15 (c : Dev nD) : (W6 m ρ c (Proc.devRef .tc main_call0_v15) : IVec S1600000 32) = idxRow0 (KArgs m c).ei := by
  refine (W6_of_ne m ρ c main_call0_v15 (by decide)).trans (Eq.trans ?_ (congrArg idxRow0 (gh_W4_arg1 m ρ c)))
  show StableHlo.after hostOps2 _ (Proc.devRef .tc main_call0_v15) = _
  after_results_simp
  rfl

theorem W6_v17 (c : Dev nD) : (W6 m ρ c (Proc.devRef .tc main_call0_v17) : IVec S1600000 32) = idxRow1 (KArgs m c).ei := by
  refine (W6_of_ne m ρ c main_call0_v17 (by decide)).trans (Eq.trans ?_ (congrArg idxRow1 (gh_W4_arg1 m ρ c)))
  show StableHlo.after hostOps2 _ (Proc.devRef .tc main_call0_v17) = _
  after_results_simp
  rfl

-- The node features after the first layer are the embedding plus the messages added into the rows their target words name.
theorem Kh1_term (c : Dev nD) :
    Kh1 m ρ c = addf (F := Ideal) (s := S50000x32) (φ := .f32) (Kh0 m ρ c)
      (Host.scatterAdd (F := Ideal) scatter_S50000x32_S1600000x1_S1600000x32_1_0_0_1
        (broadcastInDim S50000x32 ![] bcast_S_S50000x32 (constant (F := Ideal) S_ .f32 0x00000000#32))
        (broadcastInDim S1600000x1 ![0] bcast_S1600000_S1600000x1_0
          (W6 m ρ c (Proc.devRef .tc main_call0_v17) : IVec S1600000 32))
        (Kmsg1 m ρ c)) := by
  refine (gh_ofBuf_of_heq (StableHlo.TRef.of main_call0_v49 : StableHlo.TRef sig ⟨S50000x32, .f32⟩)
    (W7 m ρ c (Proc.devRef .tc main_call0_v49)) (Kh1 m ρ c) HEq.rfl).symm.trans ?_
  show (StableHlo.TRef.of main_call0_v49 : StableHlo.TRef sig ⟨S50000x32, .f32⟩).ofBuf
      (StableHlo.after hostOps3 (W6 m ρ c) (Proc.devRef .tc main_call0_v49)) = _
  after_results_simp
  simp only [gh_ofBuf_toBuf]
  rw [gh_ofBuf_of_heq (StableHlo.TRef.of main_call0_v6 : StableHlo.TRef sig ⟨S50000x32, .f32⟩) _ (Kh0 m ρ c)
      (heq_of_eq (W6_v6 m ρ c)),
    gh_ofBuf_of_heq (StableHlo.TRef.of main_call0_v17 : StableHlo.TRef sig ⟨S1600000, .i32⟩) _
      (W6 m ρ c (Proc.devRef .tc main_call0_v17)) HEq.rfl,
    gh_ofBuf_of_heq (StableHlo.TRef.of main_call0_v45 : StableHlo.TRef sig ⟨S1600000x32, .f32⟩) _ (Kmsg1 m ρ c) HEq.rfl]

theorem hd1_term (c : Dev nD) :
    (V7 m ρ c main_call0_v50 : Mat 1600000 32)
      = takeRows (Kh1 m ρ c) (W6 m ρ c (Proc.devRef .tc main_call0_v17) : IVec S1600000 32) := by
  refine (gh_ofBuf_of_heq (StableHlo.TRef.of main_call0_v50 : StableHlo.TRef sig ⟨S1600000x32, .f32⟩)
    (W7 m ρ c (Proc.devRef .tc main_call0_v50)) _ HEq.rfl).symm.trans ?_
  show (StableHlo.TRef.of main_call0_v50 : StableHlo.TRef sig ⟨S1600000x32, .f32⟩).ofBuf
      (StableHlo.after hostOps3 (W6 m ρ c) (Proc.devRef .tc main_call0_v50)) = _
  after_results_simp
  simp only [gh_ofBuf_toBuf]
  unfold takeRows inTable colWords wrapWords
  rw [gh_ofBuf_of_heq (StableHlo.TRef.of main_call0_v6 : StableHlo.TRef sig ⟨S50000x32, .f32⟩) _ (Kh0 m ρ c)
      (heq_of_eq (W6_v6 m ρ c)),
    gh_ofBuf_of_heq (StableHlo.TRef.of main_call0_v17 : StableHlo.TRef sig ⟨S1600000, .i32⟩) _
      (W6 m ρ c (Proc.devRef .tc main_call0_v17)) HEq.rfl,
    gh_ofBuf_of_heq (StableHlo.TRef.of main_call0_v45 : StableHlo.TRef sig ⟨S1600000x32, .f32⟩) _ (Kmsg1 m ρ c) HEq.rfl,
    ← Kh1_term m ρ c]

theorem hs1_term (c : Dev nD) :
    (V7 m ρ c main_call0_v51 : Mat 1600000 32)
      = takeRows (Kh1 m ρ c) (W6 m ρ c (Proc.devRef .tc main_call0_v15) : IVec S1600000 32) := by
  refine (gh_ofBuf_of_heq (StableHlo.TRef.of main_call0_v51 : StableHlo.TRef sig ⟨S1600000x32, .f32⟩)
    (W7 m ρ c (Proc.devRef .tc main_call0_v51)) _ HEq.rfl).symm.trans ?_
  show (StableHlo.TRef.of main_call0_v51 : StableHlo.TRef sig ⟨S1600000x32, .f32⟩).ofBuf
      (StableHlo.after hostOps3 (W6 m ρ c) (Proc.devRef .tc main_call0_v51)) = _
  after_results_simp
  simp only [gh_ofBuf_toBuf]
  unfold takeRows inTable colWords wrapWords
  rw [gh_ofBuf_of_heq (StableHlo.TRef.of main_call0_v6 : StableHlo.TRef sig ⟨S50000x32, .f32⟩) _ (Kh0 m ρ c)
      (heq_of_eq (W6_v6 m ρ c)),
    gh_ofBuf_of_heq (StableHlo.TRef.of main_call0_v17 : StableHlo.TRef sig ⟨S1600000, .i32⟩) _
      (W6 m ρ c (Proc.devRef .tc main_call0_v17)) HEq.rfl,
    gh_ofBuf_of_heq (StableHlo.TRef.of main_call0_v45 : StableHlo.TRef sig ⟨S1600000x32, .f32⟩) _ (Kmsg1 m ρ c) HEq.rfl,
    gh_ofBuf_of_heq (StableHlo.TRef.of main_call0_v15 : StableHlo.TRef sig ⟨S1600000, .i32⟩) _
      (W6 m ρ c (Proc.devRef .tc main_call0_v15)) HEq.rfl,
    ← Kh1_term m ρ c]

theorem hd1 (c : Dev nD) (hidx : ∀ i, 0 ≤ ((KArgs m c).ei i).toInt ∧ ((KArgs m c).ei i).toInt < 50000) (e : Fin 1600000) (k : Fin 32) :
    (V7 m ρ c main_call0_v50 : Mat 1600000 32) (ix2 e k) = Kh1 m ρ c (ix2 (dstRow (KArgs m c) e) k) := by
  rw [hd1_term m ρ c, W6_v17 m ρ c]
  exact takeRows_apply _ _ _ 1 (idxRow1_apply _) hidx e k

theorem hs1 (c : Dev nD) (hidx : ∀ i, 0 ≤ ((KArgs m c).ei i).toInt ∧ ((KArgs m c).ei i).toInt < 50000) (e : Fin 1600000) (k : Fin 32) :
    (V7 m ρ c main_call0_v51 : Mat 1600000 32) (ix2 e k) = Kh1 m ρ c (ix2 (srcRow (KArgs m c) e) k) := by
  rw [hs1_term m ρ c, W6_v15 m ρ c]
  exact takeRows_apply _ _ _ 0 (idxRow0_apply _) hidx e k

theorem ea1 (c : Dev nD) : (V7 m ρ c main_call0_v13 : Mat 1600000 32) = Kea m ρ c :=
  calc W7 m ρ c (Proc.devRef .tc main_call0_v13)
    _ = W6 m ρ c (Proc.devRef .tc main_call0_v13) := by
          refine StableHlo.after_of_forall_not_mem _ _ (List.forall_iff_forall_mem.mp ?_)
          simp only [hostOps3, List.flatten_cons, List.flatten_nil, List.append_nil, List.cons_append, List.nil_append, List.Forall,
            StableHlo.nullary_writes, StableHlo.unary_writes, StableHlo.binary_writes, StableHlo.ternary_writes, StableHlo.quaternary_writes,
            StableHlo.reshape_writes, StableHlo.binaryIndexed_writes, Finset.mem_singleton]
          repeat' apply And.intro
          all_goals exact StableHlo.devRef_ne_of_ne (by decide)
    _ = W5 m ρ c (Proc.devRef .tc main_call0_v13) :=
          (W6_arr m ρ c 2).trans (((dat2 (V5 m ρ) c).arrAt_in 2 rfl _).trans (A_eq2 (V5 m ρ) c 2))
    _ = W4 m ρ c (Proc.devRef .tc main_call0_v13) := ea0 m ρ c

end Cert.KernelIdeal.KV

end
-- ==== Proof.KGate.lean ====
import proofs.«403917_j43920335569181_3_alg».proof.Proof.KArrays
import proofs.«403917_j43920335569181_3_alg».proof.Proof.KGateReg
import proofs.«403917_j43920335569181_3_alg».proof.Proof.KGateW
import proofs.«403917_j43920335569181_3_alg».proof.Proof.KGateHost2
import proofs.«403917_j43920335569181_3_alg».proof.Proof.KGateHost3

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen Cert.Spec Cert.Net

variable (m : (ℓ : Loc nD τ sig) → Buf (Elt Ideal) ℓ) (ρ : Dev nD → PrngReg)

-- Columns j and 32 + j of the fused pre-activation are the gate's two pre-activations: the sums agree term by term.
theorem gateK_eq_gate {hd hs a : Mat 1600000 32} {w0 w1 w2 : Mat 32 64} {b : Mat 1 64} {Hd Hs A : Fin 32 → EReal}
    {Wf Ws : Ten3 2 32 96} {bf bs : Mat 2 32} (l : Fin 2) (e : Fin 1600000) (j : Fin 32)
    (hhd : ∀ k, hd (ix2 e k) = Hd k) (hhs : ∀ k, hs (ix2 e k) = Hs k) (ha : ∀ k, a (ix2 e k) = A k)
    (f0 : ∀ k : Fin 32, w0 (ix2 k ⟨j.val, by omega⟩) = Wf (ix3 l j ⟨k.val, by omega⟩))
    (f1 : ∀ k : Fin 32, w1 (ix2 k ⟨j.val, by omega⟩) = Wf (ix3 l j ⟨32 + k.val, by omega⟩))
    (f2 : ∀ k : Fin 32, w2 (ix2 k ⟨j.val, by omega⟩) = Wf (ix3 l j ⟨64 + k.val, by omega⟩))
    (fb : b (ix2 (0 : Fin 1) ⟨j.val, by omega⟩) = bf (ix2 l j))
    (s0 : ∀ k : Fin 32, w0 (ix2 k ⟨32 + j.val, by omega⟩) = Ws (ix3 l j ⟨k.val, by omega⟩))
    (s1 : ∀ k : Fin 32, w1 (ix2 k ⟨32 + j.val, by omega⟩) = Ws (ix3 l j ⟨32 + k.val, by omega⟩))
    (s2 : ∀ k : Fin 32, w2 (ix2 k ⟨32 + j.val, by omega⟩) = Ws (ix3 l j ⟨64 + k.val, by omega⟩))
    (sb : b (ix2 (0 : Fin 1) ⟨32 + j.val, by omega⟩) = bs (ix2 l j)) :
    gateK hd hs a w0 w1 w2 b e j = gate Hd Hs A Wf bf Ws bs l j := by
  unfold gateK gate gateT gatePre
  simp only [hhd, hhs, ha, f0, f1, f2, fb, s0, s1, s2, sb]

theorem k_msg1 (c : Dev nD) (hidx : ∀ i, 0 ≤ ((KArgs m c).ei i).toInt ∧ ((KArgs m c).ei i).toInt < 50000) (e : Fin 1600000) (j : Fin 32) :
    Kmsg1 m ρ c (ix2 e j)
      = gate (fun k => Kh0 m ρ c (ix2 (dstRow (KArgs m c) e) k)) (fun k => Kh0 m ρ c (ix2 (srcRow (KArgs m c) e) k))
          (fun k => Kea m ρ c (ix2 e k)) (KArgs m c).wf (KArgs m c).bf (KArgs m c).ws (KArgs m c).bs 0 j :=
  (congrFun (W6_arr m ρ c 7) (ix2 e j)).trans ((reg2_value (V5 m ρ) c e j).trans
    (gateK_eq_gate 0 e j (hd0 m ρ c hidx e) (hs0 m ρ c hidx e) (fun k => congrFun (ea0 m ρ c) (ix2 e k))
      (fun k => w0f m ρ c k j) (fun k => w1f m ρ c k j) (fun k => w2f m ρ c k j) (bbf m ρ c j)
      (fun k => w0s m ρ c k j) (fun k => w1s m ρ c k j) (fun k => w2s m ρ c k j) (bbs m ρ c j)))

theorem k_msg2 (c : Dev nD) (hidx : ∀ i, 0 ≤ ((KArgs m c).ei i).toInt ∧ ((KArgs m c).ei i).toInt < 50000) (e : Fin 1600000) (j : Fin 32) :
    Kmsg2 m ρ c (ix2 e j)
      = gate (fun k => Kh1 m ρ c (ix2 (dstRow (KArgs m c) e) k)) (fun k => Kh1 m ρ c (ix2 (srcRow (KArgs m c) e) k))
          (fun k => Kea m ρ c (ix2 e k)) (KArgs m c).wf (KArgs m c).bf (KArgs m c).ws (KArgs m c).bs 1 j :=
  (congrFun (W8_arr m ρ c 7) (ix2 e j)).trans ((reg3_value (V7 m ρ) c e j).trans
    (gateK_eq_gate 1 e j (hd1 m ρ c hidx e) (hs1 m ρ c hidx e) (fun k => congrFun (ea1 m ρ c) (ix2 e k))
      (fun k => w0f' m ρ c k j) (fun k => w1f' m ρ c k j) (fun k => w2f' m ρ c k j) (bbf' m ρ c j)
      (fun k => w0s' m ρ c k j) (fun k => w1s' m ρ c k j) (fun k => w2s' m ρ c k j) (bbs' m ρ c j)))

end Cert.KernelIdeal.KV

end
-- ==== Proof.KUpd.lean ====
import proofs.«403917_j43920335569181_3_alg».proof.Proof.KGateHost3
import Idealize.ShloMosaic.PureOps.Ideal.Laws

set_option maxRecDepth 16384

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen Cert.Spec Cert.Net

variable (m : (ℓ : Loc nD τ sig) → Buf (Elt Ideal) ℓ) (ρ : Dev nD → PrngReg)

-- Entry e of the vector of target words is row 1 of the integer argument at e.
private theorem upd_dst6 (c : Dev nD) (e : Fin 1600000) :
    (W6 m ρ c (Proc.devRef .tc main_call0_v17) : IVec S1600000 32) (ix1 e) = dstWord (KArgs m c) e := by
  rw [W6_v17 m ρ c, idxRow1_apply]
  rfl

-- Neither the operations before the second gate launch nor that launch write the vector.
private theorem upd_dst8 (c : Dev nD) (e : Fin 1600000) :
    (W8 m ρ c (Proc.devRef .tc main_call0_v17) : IVec S1600000 32) (ix1 e) = dstWord (KArgs m c) e := by
  refine Eq.trans (congrFun ((W8_of_ne m ρ c main_call0_v17 (by decide)).trans ?_) (ix1 e)) (upd_dst6 m ρ c e)
  refine StableHlo.after_of_forall_not_mem _ _ (List.forall_iff_forall_mem.mp ?_)
  simp only [hostOps3, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)

-- A sum of arrays is the sum of the entries; the scatter-add over zeros is 0 plus the update rows whose word, read signed, names the row.
private theorem upd_read (A : Mat 50000 32) (I : IVec S1600000 32) (U : Mat 1600000 32) (D : Fin 1600000 → BitVec 32)
    (hI : ∀ e, I (ix1 e) = D e) (r : Fin 50000) (q : Fin 32) :
    addf (F := Ideal) (s := S50000x32) (φ := .f32) A
        (Host.scatterAdd (F := Ideal) scatter_S50000x32_S1600000x1_S1600000x32_1_0_0_1
          (broadcastInDim S50000x32 ![] bcast_S_S50000x32 (constant (F := Ideal) S_ .f32 0x00000000#32))
          (broadcastInDim S1600000x1 ![0] bcast_S1600000_S1600000x1_0 I) U) (ix2 r q)
      = A (ix2 r q) + (0 + ∑ e : Fin 1600000, if (D e).toInt = (r.val : Int) then U (ix2 e q) else 0) := by
  refine (addf_apply (s := S50000x32) (φ := .f32) A _ (ix2 r q)).trans (congrArg (A (ix2 r q) + ·) ?_)
  refine (Cert.LibRows.rowScatterAdd_apply (n := 50000) (e := 1600000) (c := 32) (w := 32)
    scatter_S50000x32_S1600000x1_S1600000x32_1_0_0_1_wf _ _ U r q).trans (congrArg₂ (· + ·) ?_ ?_)
  · exact (broadcastInDim_apply ![] bcast_S_S50000x32 _ (ix2 r q) ix0 (fun a => a.elim0)).trans
      ((constant_apply (s := S_) (φ := .f32) 0x00000000#32 ix0).trans Ideal.ofBits_zero_f32)
  · refine Finset.sum_congr rfl fun e _ => ?_
    rw [broadcastInDim_apply ![0] bcast_S1600000_S1600000x1_0 I (ix2 e (0 : Fin 1)) (ix1 e)
      (fun a => by
        match a with
        | ⟨0, _⟩ => rfl), hI]

theorem k_h1 (c : Dev nD) (r : Fin 50000) (q : Fin 32) :
    Kh1 m ρ c (ix2 r q) = Kh0 m ρ c (ix2 r q)
      + (0 + ∑ e : Fin 1600000, if (dstWord (KArgs m c) e).toInt = (r.val : Int) then Kmsg1 m ρ c (ix2 e q) else 0) := by
  rw [Kh1_term m ρ c]
  exact upd_read (Kh0 m ρ c) _ (Kmsg1 m ρ c) _ (upd_dst6 m ρ c) r q

theorem k_h2 (c : Dev nD) (r : Fin 50000) (q : Fin 32) :
    Kh2 m ρ c (ix2 r q) = Kh1 m ρ c (ix2 r q)
      + (0 + ∑ e : Fin 1600000, if (dstWord (KArgs m c) e).toInt = (r.val : Int) then Kmsg2 m ρ c (ix2 e q) else 0) := by
  have e : Kh2 m ρ c = addf (F := Ideal) (s := S50000x32) (φ := .f32) (Kh1 m ρ c)
      (Host.scatterAdd (F := Ideal) scatter_S50000x32_S1600000x1_S1600000x32_1_0_0_1
        (broadcastInDim S50000x32 ![] bcast_S_S50000x32 (constant (F := Ideal) S_ .f32 0x00000000#32))
        (broadcastInDim S1600000x1 ![0] bcast_S1600000_S1600000x1_0
          (W8 m ρ c (Proc.devRef .tc main_call0_v17) : IVec S1600000 32))
        (Kmsg2 m ρ c)) := by
    refine (gh_ofBuf_of_heq (StableHlo.TRef.of main_call0_v81 : StableHlo.TRef sig ⟨S50000x32, .f32⟩)
      (W9 m ρ c (Proc.devRef .tc main_call0_v81)) (Kh2 m ρ c) HEq.rfl).symm.trans ?_
    show (StableHlo.TRef.of main_call0_v81 : StableHlo.TRef sig ⟨S50000x32, .f32⟩).ofBuf
        (StableHlo.after hostOps4 (W8 m ρ c) (Proc.devRef .tc main_call0_v81)) = _
    after_results_simp
    simp only [gh_ofBuf_toBuf]
    rw [gh_ofBuf_of_heq (StableHlo.TRef.of main_call0_v49 : StableHlo.TRef sig ⟨S50000x32, .f32⟩) _ (Kh1 m ρ c)
        (heq_of_eq (W8_of_ne m ρ c main_call0_v49 (by decide))),
      gh_ofBuf_of_heq (StableHlo.TRef.of main_call0_v17 : StableHlo.TRef sig ⟨S1600000, .i32⟩) _
        (W8 m ρ c (Proc.devRef .tc main_call0_v17)) HEq.rfl,
      gh_ofBuf_of_heq (StableHlo.TRef.of main_call0_v77 : StableHlo.TRef sig ⟨S1600000x32, .f32⟩) _ (Kmsg2 m ρ c) HEq.rfl]
  rw [e]
  exact upd_read (Kh1 m ρ c) _ (Kmsg2 m ρ c) _ (upd_dst8 m ρ c) r q

end Cert.KernelIdeal.KV

end
-- ==== Proof.KValue.lean ====
import proofs.«403917_j43920335569181_3_alg».proof.Proof.KArrays
import proofs.«403917_j43920335569181_3_alg».proof.Proof.KAff
import proofs.«403917_j43920335569181_3_alg».proof.Proof.KGate
import proofs.«403917_j43920335569181_3_alg».proof.Proof.KUpd
import proofs.«403917_j43920335569181_3_alg».proof.Proof.KRun

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen Cert.Spec Cert.Net

variable (m : (ℓ : Loc nD τ sig) → Buf (Elt Ideal) ℓ) (ρ : Dev nD → PrngReg)

section Stages
variable (c : Dev nD)
  (hv_in : ∀ q : Fin 32, 0 ≤ (KArgs m c).v_in (ix1 q)) (hv_e : ∀ q : Fin 32, 0 ≤ (KArgs m c).v_e (ix1 q))
  (hv_out : ∀ q : Fin 128, 0 ≤ (KArgs m c).v_out (ix1 q))
  (hidx : ∀ i, 0 ≤ ((KArgs m c).ei i).toInt ∧ ((KArgs m c).ei i).toInt < 50000)
include hv_in hv_e hv_out hidx

theorem kh0_eq : Kh0 m ρ c = Net.h0 (KArgs m c) :=
  eq_arrOf2 _ _ fun p q => (k_h0 m ρ c p q).trans (affDiv_eq_affMul _ _ _ _ _ _ _ hv_in p q).symm

theorem kea_eq : Kea m ρ c = Net.ea (KArgs m c) :=
  eq_arrOf2 _ _ fun p q => (k_ea m ρ c p q).trans (affDiv_eq_affMul _ _ _ _ _ _ _ hv_e p q).symm

theorem kmsg1_eq : Kmsg1 m ρ c = Net.msg (KArgs m c) 0 (Net.h0 (KArgs m c)) :=
  eq_arrOf2 _ _ fun e j => by
    rw [k_msg1 m ρ c hidx e j, kh0_eq m ρ c hv_in hv_e hv_out hidx, kea_eq m ρ c hv_in hv_e hv_out hidx]

theorem kh1_eq : Kh1 m ρ c = Net.h1 (KArgs m c) := by
  unfold Net.h1 Net.upd
  refine eq_arrOf2 _ _ fun r q => ?_
  rw [k_h1 m ρ c r q, kh0_eq m ρ c hv_in hv_e hv_out hidx, kmsg1_eq m ρ c hv_in hv_e hv_out hidx]

theorem kmsg2_eq : Kmsg2 m ρ c = Net.msg (KArgs m c) 1 (Net.h1 (KArgs m c)) :=
  eq_arrOf2 _ _ fun e j => by
    rw [k_msg2 m ρ c hidx e j, kh1_eq m ρ c hv_in hv_e hv_out hidx, kea_eq m ρ c hv_in hv_e hv_out hidx]

theorem kh2_eq : Kh2 m ρ c = Net.h2 (KArgs m c) := by
  unfold Net.h2 Net.upd
  refine eq_arrOf2 _ _ fun r q => ?_
  rw [k_h2 m ρ c r q, kh1_eq m ρ c hv_in hv_e hv_out hidx, kmsg2_eq m ρ c hv_in hv_e hv_out hidx]

theorem kout_eq : Kout m ρ c = Net.out (KArgs m c) :=
  eq_arrOf2 _ _ fun p q => by
    rw [k_out m ρ c p q, kh2_eq m ρ c hv_in hv_e hv_out hidx]
    exact (affDiv_eq_affMul _ _ _ _ _ _ _ hv_out p q).symm

end Stages

end Cert.KernelIdeal.KV

end
-- ==== Proof.RefRun.lean ====
import proofs.«403917_j43920335569181_3_alg».proof.Proof.Gen.ReferenceIdeal
import proofs.«403917_j43920335569181_3_alg».proof.Proof.RefRead
import Idealize.ShloMosaic.Lib.StableHlo.Run
import Idealize.ShloMosaic.Lib.Pipeline.Frame

noncomputable section

namespace Cert.ReferenceIdeal.RRun

open Cert.ReferenceIdeal Cert.ReferenceIdeal.Gen Cert.ReferenceIdeal.ReadC Idealize.ShloMosaic Idealize.ShloMosaic.TcCoe Idealize.SL.Sem Idealize.ShloMosaic.StableHlo

variable {F : FTy → Type} [FloatOps F]

abbrev ops_0 : List (HloOp τ sig (Elt F)) :=
  [ unary main_arg3 main_v0 ((transpose S128x32 [1, 0] · transposes_S32x128_S128x32_1_0) : (⟨S32x128, .f32⟩ : BufTy).Contents (Elt F) → (⟨S128x32, .f32⟩ : BufTy).Contents (Elt F)),
    binary main_arg0 main_v0 main_v1 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg4 main_v2 (broadcastInDim S1x32 ![1] bcast_S32_S1x32_1 : (⟨S32, .f32⟩ : BufTy).Contents (Elt F) → (⟨S1x32, .f32⟩ : BufTy).Contents (Elt F)),
    unary main_v2 main_v3 (broadcastInDim S50000x32 ![0, 1] bcast_S1x32_S50000x32_0_1 : (⟨S1x32, .f32⟩ : BufTy).Contents (Elt F) → (⟨S50000x32, .f32⟩ : BufTy).Contents (Elt F)),
    binary main_v1 main_v3 main_v4 (addf : (⟨S50000x32, .f32⟩ : BufTy).Contents (Elt F) → (⟨S50000x32, .f32⟩ : BufTy).Contents (Elt F) → (⟨S50000x32, .f32⟩ : BufTy).Contents (Elt F)),
    unary main_arg7 main_v5 (broadcastInDim S1x32 ![1] bcast_S32_S1x32_1 : (⟨S32, .f32⟩ : BufTy).Contents (Elt F) → (⟨S1x32, .f32⟩ : BufTy).Contents (Elt F)),
    unary main_v5 main_v6 (broadcastInDim S50000x32 ![0, 1] bcast_S1x32_S50000x32_0_1 : (⟨S1x32, .f32⟩ : BufTy).Contents (Elt F) → (⟨S50000x32, .f32⟩ : BufTy).Contents (Elt F)),
    binary main_v4 main_v6 main_v7 (subf : (⟨S50000x32, .f32⟩ : BufTy).Contents (Elt F) → (⟨S50000x32, .f32⟩ : BufTy).Contents (Elt F) → (⟨S50000x32, .f32⟩ : BufTy).Contents (Elt F)),
    nullary main_cst (constant S_ .f32 0x3727C5AC#32),
    unary main_cst main_v8 (broadcastInDim S32 ![] bcast_S_S32 : (⟨S_, .f32⟩ : BufTy).Contents (Elt F) → (⟨S32, .f32⟩ : BufTy).Contents (Elt F)),
    binary main_arg8 main_v8 main_v9 (addf : (⟨S32, .f32⟩ : BufTy).Contents (Elt F) → (⟨S32, .f32⟩ : BufTy).Contents (Elt F) → (⟨S32, .f32⟩ : BufTy).Contents (Elt F)),
    unary main_v9 main_v10 (Host.sqrt : (⟨S32, .f32⟩ : BufTy).Contents (Elt F) → (⟨S32, .f32⟩ : BufTy).Contents (Elt F)),
    binary main_arg5 main_v10 main_v11 (Host.divf : (⟨S32, .f32⟩ : BufTy).Contents (Elt F) → (⟨S32, .f32⟩ : BufTy).Contents (Elt F) → (⟨S32, .f32⟩ : BufTy).Contents (Elt F)),
    unary main_v11 main_v12 (broadcastInDim S1x32 ![1] bcast_S32_S1x32_1 : (⟨S32, .f32⟩ : BufTy).Contents (Elt F) → (⟨S1x32, .f32⟩ : BufTy).Contents (Elt F)),
    unary main_v12 main_v13 (broadcastInDim S50000x32 ![0, 1] bcast_S1x32_S50000x32_0_1 : (⟨S1x32, .f32⟩ : BufTy).Contents (Elt F) → (⟨S50000x32, .f32⟩ : BufTy).Contents (Elt F)),
    binary main_v7 main_v13 main_v14 (mulf : (⟨S50000x32, .f32⟩ : BufTy).Contents (Elt F) → (⟨S50000x32, .f32⟩ : BufTy).Contents (Elt F) → (⟨S50000x32, .f32⟩ : BufTy).Contents (Elt F)),
    unary main_arg6 main_v15 (broadcastInDim S1x32 ![1] bcast_S32_S1x32_1 : (⟨S32, .f32⟩ : BufTy).Contents (Elt F) → (⟨S1x32, .f32⟩ : BufTy).Contents (Elt F)),
    unary main_v15 main_v16 (broadcastInDim S50000x32 ![0, 1] bcast_S1x32_S50000x32_0_1 : (⟨S1x32, .f32⟩ : BufTy).Contents (Elt F) → (⟨S50000x32, .f32⟩ : BufTy).Contents (Elt F)),
    binary main_v14 main_v16 main_v17 (addf : (⟨S50000x32, .f32⟩ : BufTy).Contents (Elt F) → (⟨S50000x32, .f32⟩ : BufTy).Contents (Elt F) → (⟨S50000x32, .f32⟩ : BufTy).Contents (Elt F)),
    nullary main_cst_0 (constant S_ .f32 0x00000000#32),
    unary main_cst_0 main_v18 (broadcastInDim S50000x32 ![] bcast_S_S50000x32 : (⟨S_, .f32⟩ : BufTy).Contents (Elt F) → (⟨S50000x32, .f32⟩ : BufTy).Contents (Elt F)),
    binary main_v17 main_v18 main_v19 (cmpf .ogt : (⟨S50000x32, .f32⟩ : BufTy).Contents (Elt F) → (⟨S50000x32, .f32⟩ : BufTy).Contents (Elt F) → (⟨S50000x32, .i1⟩ : BufTy).Contents (Elt F)),
    nullary main_cst_1 (constant S_ .f32 0x3DCCCCCD#32),
    unary main_cst_1 main_v20 (broadcastInDim S50000x32 ![] bcast_S_S50000x32 : (⟨S_, .f32⟩ : BufTy).Contents (Elt F) → (⟨S50000x32, .f32⟩ : BufTy).Contents (Elt F)),
    binary main_v20 main_v17 main_v21 (mulf : (⟨S50000x32, .f32⟩ : BufTy).Contents (Elt F) → (⟨S50000x32, .f32⟩ : BufTy).Contents (Elt F) → (⟨S50000x32, .f32⟩ : BufTy).Contents (Elt F)),
    TRef.ternary (TRef.of (T := ⟨S50000x32, .i1⟩) main_v19) (TRef.of (T := ⟨S50000x32, .f32⟩) main_v17) (TRef.of (T := ⟨S50000x32, .f32⟩) main_v21) (TRef.of (T := ⟨S50000x32, .f32⟩) main_v22) select ]
abbrev ops_1 : List (HloOp τ sig (Elt F)) :=
  [ unary main_arg9 main_v23 ((transpose S128x32 [1, 0] · transposes_S32x128_S128x32_1_0) : (⟨S32x128, .f32⟩ : BufTy).Contents (Elt F) → (⟨S128x32, .f32⟩ : BufTy).Contents (Elt F)),
    binary main_arg2 main_v23 main_v24 ((fun l r => Host.dotGeneral dot_S1600000x128_S128x32_S1600000x32_1_0_0_1_n_n none l r) : (⟨S1600000x128, .f32⟩ : BufTy).Contents (Elt F) → (⟨S128x32, .f32⟩ : BufTy).Contents (Elt F) → (⟨S1600000x32, .f32⟩ : BufTy).Contents (Elt F)),
    unary main_arg10 main_v25 (broadcastInDim S1x32 ![1] bcast_S32_S1x32_1 : (⟨S32, .f32⟩ : BufTy).Contents (Elt F) → (⟨S1x32, .f32⟩ : BufTy).Contents (Elt F)),
    unary main_v25 main_v26 (broadcastInDim S1600000x32 ![0, 1] bcast_S1x32_S1600000x32_0_1 : (⟨S1x32, .f32⟩ : BufTy).Contents (Elt F) → (⟨S1600000x32, .f32⟩ : BufTy).Contents (Elt F)),
    binary main_v24 main_v26 main_v27 (addf : (⟨S1600000x32, .f32⟩ : BufTy).Contents (Elt F) → (⟨S1600000x32, .f32⟩ : BufTy).Contents (Elt F) → (⟨S1600000x32, .f32⟩ : BufTy).Contents (Elt F)),
    unary main_arg13 main_v28 (broadcastInDim S1x32 ![1] bcast_S32_S1x32_1 : (⟨S32, .f32⟩ : BufTy).Contents (Elt F) → (⟨S1x32, .f32⟩ : BufTy).Contents (Elt F)),
    unary main_v28 main_v29 (broadcastInDim S1600000x32 ![0, 1] bcast_S1x32_S1600000x32_0_1 : (⟨S1x32, .f32⟩ : BufTy).Contents (Elt F) → (⟨S1600000x32, .f32⟩ : BufTy).Contents (Elt F)),
    binary main_v27 main_v29 main_v30 (subf : (⟨S1600000x32, .f32⟩ : BufTy).Contents (Elt F) → (⟨S1600000x32, .f32⟩ : BufTy).Contents (Elt F) → (⟨S1600000x32, .f32⟩ : BufTy).Contents (Elt F)),
    nullary main_cst_2 (constant S_ .f32 0x3727C5AC#32),
    unary main_cst_2 main_v31 (broadcastInDim S32 ![] bcast_S_S32 : (⟨S_, .f32⟩ : BufTy).Contents (Elt F) → (⟨S32, .f32⟩ : BufTy).Contents (Elt F)),
    binary main_arg14 main_v31 main_v32 (addf : (⟨S32, .f32⟩ : BufTy).Contents (Elt F) → (⟨S32, .f32⟩ : BufTy).Contents (Elt F) → (⟨S32, .f32⟩ : BufTy).Contents (Elt F)),
    unary main_v32 main_v33 (Host.sqrt : (⟨S32, .f32⟩ : BufTy).Contents (Elt F) → (⟨S32, .f32⟩ : BufTy).Contents (Elt F)),
    binary main_arg11 main_v33 main_v34 (Host.divf : (⟨S32, .f32⟩ : BufTy).Contents (Elt F) → (⟨S32, .f32⟩ : BufTy).Contents (Elt F) → (⟨S32, .f32⟩ : BufTy).Contents (Elt F)),
    unary main_v34 main_v35 (broadcastInDim S1x32 ![1] bcast_S32_S1x32_1 : (⟨S32, .f32⟩ : BufTy).Contents (Elt F) → (⟨S1x32, .f32⟩ : BufTy).Contents (Elt F)),
    unary main_v35 main_v36 (broadcastInDim S1600000x32 ![0, 1] bcast_S1x32_S1600000x32_0_1 : (⟨S1x32, .f32⟩ : BufTy).Contents (Elt F) → (⟨S1600000x32, .f32⟩ : BufTy).Contents (Elt F)),
    binary main_v30 main_v36 main_v37 (mulf : (⟨S1600000x32, .f32⟩ : BufTy).Contents (Elt F) → (⟨S1600000x32, .f32⟩ : BufTy).Contents (Elt F) → (⟨S1600000x32, .f32⟩ : BufTy).Contents (Elt F)),
    unary main_arg12 main_v38 (broadcastInDim S1x32 ![1] bcast_S32_S1x32_1 : (⟨S32, .f32⟩ : BufTy).Contents (Elt F) → (⟨S1x32, .f32⟩ : BufTy).Contents (Elt F)),
    unary main_v38 main_v39 (broadcastInDim S1600000x32 ![0, 1] bcast_S1x32_S1600000x32_0_1 : (⟨S1x32, .f32⟩ : BufTy).Contents (Elt F) → (⟨S1600000x32, .f32⟩ : BufTy).Contents (Elt F)),
    binary main_v37 main_v39 main_v40 (addf : (⟨S1600000x32, .f32⟩ : BufTy).Contents (Elt F) → (⟨S1600000x32, .f32⟩ : BufTy).Contents (Elt F) → (⟨S1600000x32, .f32⟩ : BufTy).Contents (Elt F)),
    nullary main_cst_3 (constant S_ .f32 0x00000000#32),
    unary main_cst_3 main_v41 (broadcastInDim S1600000x32 ![] bcast_S_S1600000x32 : (⟨S_, .f32⟩ : BufTy).Contents (Elt F) → (⟨S1600000x32, .f32⟩ : BufTy).Contents (Elt F)),
    binary main_v40 main_v41 main_v42 (cmpf .ogt : (⟨S1600000x32, .f32⟩ : BufTy).Contents (Elt F) → (⟨S1600000x32, .f32⟩ : BufTy).Contents (Elt F) → (⟨S1600000x32, .i1⟩ : BufTy).Contents (Elt F)),
    nullary main_cst_4 (constant S_ .f32 0x3DCCCCCD#32),
    unary main_cst_4 main_v43 (broadcastInDim S1600000x32 ![] bcast_S_S1600000x32 : (⟨S_, .f32⟩ : BufTy).Contents (Elt F) → (⟨S1600000x32, .f32⟩ : BufTy).Contents (Elt F)),
    binary main_v43 main_v40 main_v44 (mulf : (⟨S1600000x32, .f32⟩ : BufTy).Contents (Elt F) → (⟨S1600000x32, .f32⟩ : BufTy).Contents (Elt F) → (⟨S1600000x32, .f32⟩ : BufTy).Contents (Elt F)),
    TRef.ternary (TRef.of (T := ⟨S1600000x32, .i1⟩) main_v42) (TRef.of (T := ⟨S1600000x32, .f32⟩) main_v40) (TRef.of (T := ⟨S1600000x32, .f32⟩) main_v44) (TRef.of (T := ⟨S1600000x32, .f32⟩) main_v45) select ]
abbrev ops_2 : List (HloOp τ sig (Elt F)) :=
  [ unary main_arg1 main_v46 ((extractStridedSlice S1x1600000 ![0, 0] · slices_S2x1600000_S1x1600000_0_0) : (⟨S2x1600000, .i32⟩ : BufTy).Contents (Elt F) → (⟨S1x1600000, .i32⟩ : BufTy).Contents (Elt F)),
    reshape main_v46 main_v47 rfl shapeCasts_S1x1600000_S1600000,
    unary main_arg1 main_v48 ((extractStridedSlice S1x1600000 ![1, 0] · slices_S2x1600000_S1x1600000_1_0) : (⟨S2x1600000, .i32⟩ : BufTy).Contents (Elt F) → (⟨S1x1600000, .i32⟩ : BufTy).Contents (Elt F)),
    reshape main_v48 main_v49 rfl shapeCasts_S1x1600000_S1600000,
    nullary main_c (constantI S_ 32 0#32),
    unary main_c main_v50 (broadcastInDim S1600000 ![] bcast_S_S1600000 : (⟨S_, .i32⟩ : BufTy).Contents (Elt F) → (⟨S1600000, .i32⟩ : BufTy).Contents (Elt F)),
    binary main_v49 main_v50 main_v51 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 50000#32) ]
abbrev ops_3 : List (HloOp τ sig (Elt F)) :=
  [ unary main_c_5 main_v52 (broadcastInDim S1600000 ![] bcast_S_S1600000 : (⟨S_, .i32⟩ : BufTy).Contents (Elt F) → (⟨S1600000, .i32⟩ : BufTy).Contents (Elt F)),
    binary main_v49 main_v52 main_v53 (addi : (⟨S1600000, .i32⟩ : BufTy).Contents (Elt F) → (⟨S1600000, .i32⟩ : BufTy).Contents (Elt F) → (⟨S1600000, .i32⟩ : BufTy).Contents (Elt F)),
    ternary main_v51 main_v53 main_v49 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v54 main_v55 (broadcastInDim S1600000x1 ![0] bcast_S1600000_S1600000x1_0 : (⟨S1600000, .i32⟩ : BufTy).Contents (Elt F) → (⟨S1600000x1, .i32⟩ : BufTy).Contents (Elt F)),
    binary main_v22 main_v55 main_v56 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_6 (constantI S_ 32 0#32),
    unary main_c_6 main_v57 (broadcastInDim S1600000 ![] bcast_S_S1600000 : (⟨S_, .i32⟩ : BufTy).Contents (Elt F) → (⟨S1600000, .i32⟩ : BufTy).Contents (Elt F)),
    binary main_v47 main_v57 main_v58 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 50000#32),
    unary main_c_7 main_v59 (broadcastInDim S1600000 ![] bcast_S_S1600000 : (⟨S_, .i32⟩ : BufTy).Contents (Elt F) → (⟨S1600000, .i32⟩ : BufTy).Contents (Elt F)),
    binary main_v47 main_v59 main_v60 (addi : (⟨S1600000, .i32⟩ : BufTy).Contents (Elt F) → (⟨S1600000, .i32⟩ : BufTy).Contents (Elt F) → (⟨S1600000, .i32⟩ : BufTy).Contents (Elt F)),
    ternary main_v58 main_v60 main_v47 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v61 main_v62 (broadcastInDim S1600000x1 ![0] bcast_S1600000_S1600000x1_0 : (⟨S1600000, .i32⟩ : BufTy).Contents (Elt F) → (⟨S1600000x1, .i32⟩ : BufTy).Contents (Elt F)),
    binary main_v22 main_v62 main_v63 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)) ]
abbrev ops_4 : List (HloOp τ sig (Elt F)) :=
  [ nary ![main_v56, main_v63, main_v45] main_v64 (fun u => concatenate S1600000x96 1 [⟨S1600000x32, u 0⟩, ⟨S1600000x32, u 1⟩, ⟨S1600000x32, u 2⟩] concatenates_S1600000x32_S1600000x32_S1600000x32_S1600000x96_d1) ]
abbrev ops_5 : List (HloOp τ sig (Elt F)) :=
  [ unary main_arg15 main_v65 ((extractStridedSlice S1x32x96 ![0, 0, 0] · slices_S2x32x96_S1x32x96_0_0_0) : (⟨S2x32x96, .f32⟩ : BufTy).Contents (Elt F) → (⟨S1x32x96, .f32⟩ : BufTy).Contents (Elt F)),
    reshape main_v65 main_v66 rfl shapeCasts_S1x32x96_S32x96,
    unary main_v66 main_v67 ((transpose S96x32 [1, 0] · transposes_S32x96_S96x32_1_0) : (⟨S32x96, .f32⟩ : BufTy).Contents (Elt F) → (⟨S96x32, .f32⟩ : BufTy).Contents (Elt F)),
    binary main_v64 main_v67 main_v68 ((fun l r => Host.dotGeneral dot_S1600000x96_S96x32_S1600000x32_1_0_0_1_n_n none l r) : (⟨S1600000x96, .f32⟩ : BufTy).Contents (Elt F) → (⟨S96x32, .f32⟩ : BufTy).Contents (Elt F) → (⟨S1600000x32, .f32⟩ : BufTy).Contents (Elt F)),
    unary main_arg16 main_v69 ((extractStridedSlice S1x32 ![0, 0] · slices_S2x32_S1x32_0_0) : (⟨S2x32, .f32⟩ : BufTy).Contents (Elt F) → (⟨S1x32, .f32⟩ : BufTy).Contents (Elt F)),
    reshape main_v69 main_v70 rfl shapeCasts_S1x32_S32,
    unary main_v70 main_v71 (broadcastInDim S1x32 ![1] bcast_S32_S1x32_1 : (⟨S32, .f32⟩ : BufTy).Contents (Elt F) → (⟨S1x32, .f32⟩ : BufTy).Contents (Elt F)),
    unary main_v71 main_v72 (broadcastInDim S1600000x32 ![0, 1] bcast_S1x32_S1600000x32_0_1 : (⟨S1x32, .f32⟩ : BufTy).Contents (Elt F) → (⟨S1600000x32, .f32⟩ : BufTy).Contents (Elt F)),
    binary main_v68 main_v72 main_v73 (addf : (⟨S1600000x32, .f32⟩ : BufTy).Contents (Elt F) → (⟨S1600000x32, .f32⟩ : BufTy).Contents (Elt F) → (⟨S1600000x32, .f32⟩ : BufTy).Contents (Elt F)),
    unary main_v73 main_v74 (Host.negf : (⟨S1600000x32, .f32⟩ : BufTy).Contents (Elt F) → (⟨S1600000x32, .f32⟩ : BufTy).Contents (Elt F)),
    unary main_v74 main_v75 (Host.exp : (⟨S1600000x32, .f32⟩ : BufTy).Contents (Elt F) → (⟨S1600000x32, .f32⟩ : BufTy).Contents (Elt F)),
    nullary main_cst_8 (constant S_ .f32 0x3F800000#32),
    unary main_cst_8 main_v76 (broadcastInDim S1600000x32 ![] bcast_S_S1600000x32 : (⟨S_, .f32⟩ : BufTy).Contents (Elt F) → (⟨S1600000x32, .f32⟩ : BufTy).Contents (Elt F)),
    binary main_v76 main_v75 main_v77 (addf : (⟨S1600000x32, .f32⟩ : BufTy).Contents (Elt F) → (⟨S1600000x32, .f32⟩ : BufTy).Contents (Elt F) → (⟨S1600000x32, .f32⟩ : BufTy).Contents (Elt F)),
    nullary main_cst_9 (constant S_ .f32 0x3F800000#32),
    unary main_cst_9 main_v78 (broadcastInDim S1600000x32 ![] bcast_S_S1600000x32 : (⟨S_, .f32⟩ : BufTy).Contents (Elt F) → (⟨S1600000x32, .f32⟩ : BufTy).Contents (Elt F)),
    binary main_v78 main_v77 main_v79 (Host.divf : (⟨S1600000x32, .f32⟩ : BufTy).Contents (Elt F) → (⟨S1600000x32, .f32⟩ : BufTy).Contents (Elt F) → (⟨S1600000x32, .f32⟩ : BufTy).Contents (Elt F)) ]
abbrev ops_6 : List (HloOp τ sig (Elt F)) :=
  [ unary main_arg17 main_v80 ((extractStridedSlice S1x32x96 ![0, 0, 0] · slices_S2x32x96_S1x32x96_0_0_0) : (⟨S2x32x96, .f32⟩ : BufTy).Contents (Elt F) → (⟨S1x32x96, .f32⟩ : BufTy).Contents (Elt F)),
    reshape main_v80 main_v81 rfl shapeCasts_S1x32x96_S32x96,
    unary main_v81 main_v82 ((transpose S96x32 [1, 0] · transposes_S32x96_S96x32_1_0) : (⟨S32x96, .f32⟩ : BufTy).Contents (Elt F) → (⟨S96x32, .f32⟩ : BufTy).Contents (Elt F)),
    binary main_v64 main_v82 main_v83 ((fun l r => Host.dotGeneral dot_S1600000x96_S96x32_S1600000x32_1_0_0_1_n_n none l r) : (⟨S1600000x96, .f32⟩ : BufTy).Contents (Elt F) → (⟨S96x32, .f32⟩ : BufTy).Contents (Elt F) → (⟨S1600000x32, .f32⟩ : BufTy).Contents (Elt F)),
    unary main_arg18 main_v84 ((extractStridedSlice S1x32 ![0, 0] · slices_S2x32_S1x32_0_0) : (⟨S2x32, .f32⟩ : BufTy).Contents (Elt F) → (⟨S1x32, .f32⟩ : BufTy).Contents (Elt F)),
    reshape main_v84 main_v85 rfl shapeCasts_S1x32_S32,
    unary main_v85 main_v86 (broadcastInDim S1x32 ![1] bcast_S32_S1x32_1 : (⟨S32, .f32⟩ : BufTy).Contents (Elt F) → (⟨S1x32, .f32⟩ : BufTy).Contents (Elt F)),
    unary main_v86 main_v87 (broadcastInDim S1600000x32 ![0, 1] bcast_S1x32_S1600000x32_0_1 : (⟨S1x32, .f32⟩ : BufTy).Contents (Elt F) → (⟨S1600000x32, .f32⟩ : BufTy).Contents (Elt F)),
    binary main_v83 main_v87 main_v88 (addf : (⟨S1600000x32, .f32⟩ : BufTy).Contents (Elt F) → (⟨S1600000x32, .f32⟩ : BufTy).Contents (Elt F) → (⟨S1600000x32, .f32⟩ : BufTy).Contents (Elt F)) ]
abbrev ops_7 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S1600000x32, .f32⟩) main_call2_v0) (broadcastInDim S1600000x32 ![] bcast_S_S1600000x32),
    TRef.binary (TRef.of (T := ⟨S1600000x32, .f32⟩) main_v88) (TRef.of (T := ⟨S1600000x32, .f32⟩) main_call2_v0) (TRef.of (T := ⟨S1600000x32, .f32⟩) main_call2_v1) maximumf,
    TRef.unary (TRef.of (T := ⟨S_, .f32⟩) main_call2_cst) (TRef.of (T := ⟨S1600000x32, .f32⟩) main_call2_v2) (broadcastInDim S1600000x32 ![] bcast_S_S1600000x32),
    TRef.binary (TRef.of (T := ⟨S1600000x32, .f32⟩) main_v88) (TRef.of (T := ⟨S1600000x32, .f32⟩) main_call2_v2) (TRef.of (T := ⟨S1600000x32, .f32⟩) main_call2_v3) subf,
    TRef.binary (TRef.of (T := ⟨S1600000x32, .f32⟩) main_call2_v3) (TRef.of (T := ⟨S1600000x32, .f32⟩) main_call2_v3) (TRef.of (T := ⟨S1600000x32, .i1⟩) main_call2_v4) (cmpf .une),
    TRef.unary (TRef.of (T := ⟨S_, .f32⟩) main_call2_cst) (TRef.of (T := ⟨S1600000x32, .f32⟩) main_call2_v5) (broadcastInDim S1600000x32 ![] bcast_S_S1600000x32),
    TRef.binary (TRef.of (T := ⟨S1600000x32, .f32⟩) main_v88) (TRef.of (T := ⟨S1600000x32, .f32⟩) main_call2_v5) (TRef.of (T := ⟨S1600000x32, .f32⟩) main_call2_v6) addf,
    TRef.unary (TRef.of (T := ⟨S1600000x32, .f32⟩) main_call2_v3) (TRef.of (T := ⟨S1600000x32, .f32⟩) main_call2_v7) Host.absf,
    TRef.unary (TRef.of (T := ⟨S1600000x32, .f32⟩) main_call2_v7) (TRef.of (T := ⟨S1600000x32, .f32⟩) main_call2_v8) Host.negf,
    TRef.unary (TRef.of (T := ⟨S1600000x32, .f32⟩) main_call2_v8) (TRef.of (T := ⟨S1600000x32, .f32⟩) main_call2_v9) Host.exp,
    TRef.unary (TRef.of (T := ⟨S1600000x32, .f32⟩) main_call2_v9) (TRef.of (T := ⟨S1600000x32, .f32⟩) main_call2_v10) Host.log1p,
    TRef.binary (TRef.of (T := ⟨S1600000x32, .f32⟩) main_call2_v1) (TRef.of (T := ⟨S1600000x32, .f32⟩) main_call2_v10) (TRef.of (T := ⟨S1600000x32, .f32⟩) main_call2_v11) addf,
    TRef.ternary (TRef.of (T := ⟨S1600000x32, .i1⟩) main_call2_v4) (TRef.of (T := ⟨S1600000x32, .f32⟩) main_call2_v6) (TRef.of (T := ⟨S1600000x32, .f32⟩) main_call2_v11) (TRef.of (T := ⟨S1600000x32, .f32⟩) main_v89) select,
    binary main_v79 main_v89 main_v90 (mulf : (⟨S1600000x32, .f32⟩ : BufTy).Contents (Elt F) → (⟨S1600000x32, .f32⟩ : BufTy).Contents (Elt F) → (⟨S1600000x32, .f32⟩ : BufTy).Contents (Elt F)) ]
abbrev ops_8 : List (HloOp τ sig (Elt F)) :=
  [ nullary main_cst_10 (constant S_ .f32 0x00000000#32),
    unary main_cst_10 main_v91 (broadcastInDim S50000x32 ![] bcast_S_S50000x32 : (⟨S_, .f32⟩ : BufTy).Contents (Elt F) → (⟨S50000x32, .f32⟩ : BufTy).Contents (Elt F)),
    unary main_v49 main_v92 (broadcastInDim S1600000x1 ![0] bcast_S1600000_S1600000x1_0 : (⟨S1600000, .i32⟩ : BufTy).Contents (Elt F) → (⟨S1600000x1, .i32⟩ : BufTy).Contents (Elt F)),
    ternary main_v91 main_v92 main_v90 main_v93 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    binary main_v22 main_v93 main_v94 (addf : (⟨S50000x32, .f32⟩ : BufTy).Contents (Elt F) → (⟨S50000x32, .f32⟩ : BufTy).Contents (Elt F) → (⟨S50000x32, .f32⟩ : BufTy).Contents (Elt F)) ]
abbrev ops_9 : List (HloOp τ sig (Elt F)) :=
  [ nullary main_c_11 (constantI S_ 32 0#32),
    unary main_c_11 main_v95 (broadcastInDim S1600000 ![] bcast_S_S1600000 : (⟨S_, .i32⟩ : BufTy).Contents (Elt F) → (⟨S1600000, .i32⟩ : BufTy).Contents (Elt F)),
    binary main_v49 main_v95 main_v96 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 50000#32),
    unary main_c_12 main_v97 (broadcastInDim S1600000 ![] bcast_S_S1600000 : (⟨S_, .i32⟩ : BufTy).Contents (Elt F) → (⟨S1600000, .i32⟩ : BufTy).Contents (Elt F)),
    binary main_v49 main_v97 main_v98 (addi : (⟨S1600000, .i32⟩ : BufTy).Contents (Elt F) → (⟨S1600000, .i32⟩ : BufTy).Contents (Elt F) → (⟨S1600000, .i32⟩ : BufTy).Contents (Elt F)),
    ternary main_v96 main_v98 main_v49 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v99 main_v100 (broadcastInDim S1600000x1 ![0] bcast_S1600000_S1600000x1_0 : (⟨S1600000, .i32⟩ : BufTy).Contents (Elt F) → (⟨S1600000x1, .i32⟩ : BufTy).Contents (Elt F)),
    binary main_v94 main_v100 main_v101 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_c_13 (constantI S_ 32 0#32),
    unary main_c_13 main_v102 (broadcastInDim S1600000 ![] bcast_S_S1600000 : (⟨S_, .i32⟩ : BufTy).Contents (Elt F) → (⟨S1600000, .i32⟩ : BufTy).Contents (Elt F)),
    binary main_v47 main_v102 main_v103 (cmpi .slt : (⟨S1600000, .i32⟩ : BufTy).Contents (Elt F) → (⟨S1600000, .i32⟩ : BufTy).Contents (Elt F) → (⟨S1600000, .i1⟩ : BufTy).Contents (Elt F)) ]
abbrev ops_10 : List (HloOp τ sig (Elt F)) :=
  [ nullary main_c_14 (constantI S_ 32 50000#32),
    unary main_c_14 main_v104 (broadcastInDim S1600000 ![] bcast_S_S1600000 : (⟨S_, .i32⟩ : BufTy).Contents (Elt F) → (⟨S1600000, .i32⟩ : BufTy).Contents (Elt F)),
    binary main_v47 main_v104 main_v105 (addi : (⟨S1600000, .i32⟩ : BufTy).Contents (Elt F) → (⟨S1600000, .i32⟩ : BufTy).Contents (Elt F) → (⟨S1600000, .i32⟩ : BufTy).Contents (Elt F)),
    ternary main_v103 main_v105 main_v47 main_v106 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v106 main_v107 (broadcastInDim S1600000x1 ![0] bcast_S1600000_S1600000x1_0 : (⟨S1600000, .i32⟩ : BufTy).Contents (Elt F) → (⟨S1600000x1, .i32⟩ : BufTy).Contents (Elt F)),
    binary main_v94 main_v107 main_v108 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)) ]
abbrev ops_11 : List (HloOp τ sig (Elt F)) :=
  [ nary ![main_v101, main_v108, main_v45] main_v109 (fun u => concatenate S1600000x96 1 [⟨S1600000x32, u 0⟩, ⟨S1600000x32, u 1⟩, ⟨S1600000x32, u 2⟩] concatenates_S1600000x32_S1600000x32_S1600000x32_S1600000x96_d1) ]
abbrev ops_12 : List (HloOp τ sig (Elt F)) :=
  [ unary main_arg15 main_v110 ((extractStridedSlice S1x32x96 ![1, 0, 0] · slices_S2x32x96_S1x32x96_1_0_0) : (⟨S2x32x96, .f32⟩ : BufTy).Contents (Elt F) → (⟨S1x32x96, .f32⟩ : BufTy).Contents (Elt F)),
    reshape main_v110 main_v111 rfl shapeCasts_S1x32x96_S32x96,
    unary main_v111 main_v112 ((transpose S96x32 [1, 0] · transposes_S32x96_S96x32_1_0) : (⟨S32x96, .f32⟩ : BufTy).Contents (Elt F) → (⟨S96x32, .f32⟩ : BufTy).Contents (Elt F)),
    binary main_v109 main_v112 main_v113 ((fun l r => Host.dotGeneral dot_S1600000x96_S96x32_S1600000x32_1_0_0_1_n_n none l r) : (⟨S1600000x96, .f32⟩ : BufTy).Contents (Elt F) → (⟨S96x32, .f32⟩ : BufTy).Contents (Elt F) → (⟨S1600000x32, .f32⟩ : BufTy).Contents (Elt F)),
    unary main_arg16 main_v114 ((extractStridedSlice S1x32 ![1, 0] · slices_S2x32_S1x32_1_0) : (⟨S2x32, .f32⟩ : BufTy).Contents (Elt F) → (⟨S1x32, .f32⟩ : BufTy).Contents (Elt F)),
    reshape main_v114 main_v115 rfl shapeCasts_S1x32_S32,
    unary main_v115 main_v116 (broadcastInDim S1x32 ![1] bcast_S32_S1x32_1 : (⟨S32, .f32⟩ : BufTy).Contents (Elt F) → (⟨S1x32, .f32⟩ : BufTy).Contents (Elt F)),
    unary main_v116 main_v117 (broadcastInDim S1600000x32 ![0, 1] bcast_S1x32_S1600000x32_0_1 : (⟨S1x32, .f32⟩ : BufTy).Contents (Elt F) → (⟨S1600000x32, .f32⟩ : BufTy).Contents (Elt F)),
    binary main_v113 main_v117 main_v118 (addf : (⟨S1600000x32, .f32⟩ : BufTy).Contents (Elt F) → (⟨S1600000x32, .f32⟩ : BufTy).Contents (Elt F) → (⟨S1600000x32, .f32⟩ : BufTy).Contents (Elt F)),
    unary main_v118 main_v119 (Host.negf : (⟨S1600000x32, .f32⟩ : BufTy).Contents (Elt F) → (⟨S1600000x32, .f32⟩ : BufTy).Contents (Elt F)),
    unary main_v119 main_v120 (Host.exp : (⟨S1600000x32, .f32⟩ : BufTy).Contents (Elt F) → (⟨S1600000x32, .f32⟩ : BufTy).Contents (Elt F)),
    nullary main_cst_15 (constant S_ .f32 0x3F800000#32),
    unary main_cst_15 main_v121 (broadcastInDim S1600000x32 ![] bcast_S_S1600000x32 : (⟨S_, .f32⟩ : BufTy).Contents (Elt F) → (⟨S1600000x32, .f32⟩ : BufTy).Contents (Elt F)),
    binary main_v121 main_v120 main_v122 (addf : (⟨S1600000x32, .f32⟩ : BufTy).Contents (Elt F) → (⟨S1600000x32, .f32⟩ : BufTy).Contents (Elt F) → (⟨S1600000x32, .f32⟩ : BufTy).Contents (Elt F)),
    nullary main_cst_16 (constant S_ .f32 0x3F800000#32),
    unary main_cst_16 main_v123 (broadcastInDim S1600000x32 ![] bcast_S_S1600000x32 : (⟨S_, .f32⟩ : BufTy).Contents (Elt F) → (⟨S1600000x32, .f32⟩ : BufTy).Contents (Elt F)),
    binary main_v123 main_v122 main_v124 (Host.divf : (⟨S1600000x32, .f32⟩ : BufTy).Contents (Elt F) → (⟨S1600000x32, .f32⟩ : BufTy).Contents (Elt F) → (⟨S1600000x32, .f32⟩ : BufTy).Contents (Elt F)) ]
abbrev ops_13 : List (HloOp τ sig (Elt F)) :=
  [ unary main_arg17 main_v125 ((extractStridedSlice S1x32x96 ![1, 0, 0] · slices_S2x32x96_S1x32x96_1_0_0) : (⟨S2x32x96, .f32⟩ : BufTy).Contents (Elt F) → (⟨S1x32x96, .f32⟩ : BufTy).Contents (Elt F)),
    reshape main_v125 main_v126 rfl shapeCasts_S1x32x96_S32x96,
    unary main_v126 main_v127 ((transpose S96x32 [1, 0] · transposes_S32x96_S96x32_1_0) : (⟨S32x96, .f32⟩ : BufTy).Contents (Elt F) → (⟨S96x32, .f32⟩ : BufTy).Contents (Elt F)),
    binary main_v109 main_v127 main_v128 ((fun l r => Host.dotGeneral dot_S1600000x96_S96x32_S1600000x32_1_0_0_1_n_n none l r) : (⟨S1600000x96, .f32⟩ : BufTy).Contents (Elt F) → (⟨S96x32, .f32⟩ : BufTy).Contents (Elt F) → (⟨S1600000x32, .f32⟩ : BufTy).Contents (Elt F)),
    unary main_arg18 main_v129 ((extractStridedSlice S1x32 ![1, 0] · slices_S2x32_S1x32_1_0) : (⟨S2x32, .f32⟩ : BufTy).Contents (Elt F) → (⟨S1x32, .f32⟩ : BufTy).Contents (Elt F)),
    reshape main_v129 main_v130 rfl shapeCasts_S1x32_S32,
    unary main_v130 main_v131 (broadcastInDim S1x32 ![1] bcast_S32_S1x32_1 : (⟨S32, .f32⟩ : BufTy).Contents (Elt F) → (⟨S1x32, .f32⟩ : BufTy).Contents (Elt F)),
    unary main_v131 main_v132 (broadcastInDim S1600000x32 ![0, 1] bcast_S1x32_S1600000x32_0_1 : (⟨S1x32, .f32⟩ : BufTy).Contents (Elt F) → (⟨S1600000x32, .f32⟩ : BufTy).Contents (Elt F)),
    binary main_v128 main_v132 main_v133 (addf : (⟨S1600000x32, .f32⟩ : BufTy).Contents (Elt F) → (⟨S1600000x32, .f32⟩ : BufTy).Contents (Elt F) → (⟨S1600000x32, .f32⟩ : BufTy).Contents (Elt F)) ]
abbrev ops_14 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S1600000x32, .f32⟩) main_call3_v0) (broadcastInDim S1600000x32 ![] bcast_S_S1600000x32),
    TRef.binary (TRef.of (T := ⟨S1600000x32, .f32⟩) main_v133) (TRef.of (T := ⟨S1600000x32, .f32⟩) main_call3_v0) (TRef.of (T := ⟨S1600000x32, .f32⟩) main_call3_v1) maximumf,
    TRef.unary (TRef.of (T := ⟨S_, .f32⟩) main_call3_cst) (TRef.of (T := ⟨S1600000x32, .f32⟩) main_call3_v2) (broadcastInDim S1600000x32 ![] bcast_S_S1600000x32),
    TRef.binary (TRef.of (T := ⟨S1600000x32, .f32⟩) main_v133) (TRef.of (T := ⟨S1600000x32, .f32⟩) main_call3_v2) (TRef.of (T := ⟨S1600000x32, .f32⟩) main_call3_v3) subf,
    TRef.binary (TRef.of (T := ⟨S1600000x32, .f32⟩) main_call3_v3) (TRef.of (T := ⟨S1600000x32, .f32⟩) main_call3_v3) (TRef.of (T := ⟨S1600000x32, .i1⟩) main_call3_v4) (cmpf .une),
    TRef.unary (TRef.of (T := ⟨S_, .f32⟩) main_call3_cst) (TRef.of (T := ⟨S1600000x32, .f32⟩) main_call3_v5) (broadcastInDim S1600000x32 ![] bcast_S_S1600000x32),
    TRef.binary (TRef.of (T := ⟨S1600000x32, .f32⟩) main_v133) (TRef.of (T := ⟨S1600000x32, .f32⟩) main_call3_v5) (TRef.of (T := ⟨S1600000x32, .f32⟩) main_call3_v6) addf,
    TRef.unary (TRef.of (T := ⟨S1600000x32, .f32⟩) main_call3_v3) (TRef.of (T := ⟨S1600000x32, .f32⟩) main_call3_v7) Host.absf,
    TRef.unary (TRef.of (T := ⟨S1600000x32, .f32⟩) main_call3_v7) (TRef.of (T := ⟨S1600000x32, .f32⟩) main_call3_v8) Host.negf,
    TRef.unary (TRef.of (T := ⟨S1600000x32, .f32⟩) main_call3_v8) (TRef.of (T := ⟨S1600000x32, .f32⟩) main_call3_v9) Host.exp,
    TRef.unary (TRef.of (T := ⟨S1600000x32, .f32⟩) main_call3_v9) (TRef.of (T := ⟨S1600000x32, .f32⟩) main_call3_v10) Host.log1p,
    TRef.binary (TRef.of (T := ⟨S1600000x32, .f32⟩) main_call3_v1) (TRef.of (T := ⟨S1600000x32, .f32⟩) main_call3_v10) (TRef.of (T := ⟨S1600000x32, .f32⟩) main_call3_v11) addf,
    TRef.ternary (TRef.of (T := ⟨S1600000x32, .i1⟩) main_call3_v4) (TRef.of (T := ⟨S1600000x32, .f32⟩) main_call3_v6) (TRef.of (T := ⟨S1600000x32, .f32⟩) main_call3_v11) (TRef.of (T := ⟨S1600000x32, .f32⟩) main_v134) select,
    binary main_v124 main_v134 main_v135 (mulf : (⟨S1600000x32, .f32⟩ : BufTy).Contents (Elt F) → (⟨S1600000x32, .f32⟩ : BufTy).Contents (Elt F) → (⟨S1600000x32, .f32⟩ : BufTy).Contents (Elt F)) ]
abbrev ops_15 : List (HloOp τ sig (Elt F)) :=
  [ nullary main_cst_17 (constant S_ .f32 0x00000000#32),
    unary main_cst_17 main_v136 (broadcastInDim S50000x32 ![] bcast_S_S50000x32 : (⟨S_, .f32⟩ : BufTy).Contents (Elt F) → (⟨S50000x32, .f32⟩ : BufTy).Contents (Elt F)),
    unary main_v49 main_v137 (broadcastInDim S1600000x1 ![0] bcast_S1600000_S1600000x1_0 : (⟨S1600000, .i32⟩ : BufTy).Contents (Elt F) → (⟨S1600000x1, .i32⟩ : BufTy).Contents (Elt F)),
    ternary main_v136 main_v137 main_v135 main_v138 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    binary main_v94 main_v138 main_v139 (addf : (⟨S50000x32, .f32⟩ : BufTy).Contents (Elt F) → (⟨S50000x32, .f32⟩ : BufTy).Contents (Elt F) → (⟨S50000x32, .f32⟩ : BufTy).Contents (Elt F)) ]
abbrev ops_16 : List (HloOp τ sig (Elt F)) :=
  [ unary main_arg19 main_v140 ((transpose S32x128 [1, 0] · transposes_S128x32_S32x128_1_0) : (⟨S128x32, .f32⟩ : BufTy).Contents (Elt F) → (⟨S32x128, .f32⟩ : BufTy).Contents (Elt F)),
    binary main_v139 main_v140 main_v141 ((fun l r => Host.dotGeneral dot_S50000x32_S32x128_S50000x128_1_0_0_1_n_n none l r) : (⟨S50000x32, .f32⟩ : BufTy).Contents (Elt F) → (⟨S32x128, .f32⟩ : BufTy).Contents (Elt F) → (⟨S50000x128, .f32⟩ : BufTy).Contents (Elt F)),
    unary main_arg20 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v141 main_v143 main_v144 (addf : (⟨S50000x128, .f32⟩ : BufTy).Contents (Elt F) → (⟨S50000x128, .f32⟩ : BufTy).Contents (Elt F) → (⟨S50000x128, .f32⟩ : BufTy).Contents (Elt F)),
    unary main_arg23 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v144 main_v146 main_v147 (subf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3727C5AC#32),
    unary main_cst_18 main_v148 (broadcastInDim S128 ![] bcast_S_S128 : (⟨S_, .f32⟩ : BufTy).Contents (Elt F) → (⟨S128, .f32⟩ : BufTy).Contents (Elt F)),
    binary main_arg24 main_v148 main_v149 (addf : (⟨S128, .f32⟩ : BufTy).Contents (Elt F) → (⟨S128, .f32⟩ : BufTy).Contents (Elt F) → (⟨S128, .f32⟩ : BufTy).Contents (Elt F)),
    unary main_v149 main_v150 (Host.sqrt : (⟨S128, .f32⟩ : BufTy).Contents (Elt F) → (⟨S128, .f32⟩ : BufTy).Contents (Elt F)),
    binary main_arg21 main_v150 main_v151 (Host.divf : (⟨S128, .f32⟩ : BufTy).Contents (Elt F) → (⟨S128, .f32⟩ : BufTy).Contents (Elt F) → (⟨S128, .f32⟩ : BufTy).Contents (Elt F)),
    unary main_v151 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v147 main_v153 main_v154 (mulf : (⟨S50000x128, .f32⟩ : BufTy).Contents (Elt F) → (⟨S50000x128, .f32⟩ : BufTy).Contents (Elt F) → (⟨S50000x128, .f32⟩ : BufTy).Contents (Elt F)),
    unary main_arg22 main_v155 (broadcastInDim S1x128 ![1] bcast_S128_S1x128_1 : (⟨S128, .f32⟩ : BufTy).Contents (Elt F) → (⟨S1x128, .f32⟩ : BufTy).Contents (Elt F)),
    unary main_v155 main_v156 (broadcastInDim S50000x128 ![0, 1] bcast_S1x128_S50000x128_0_1 : (⟨S1x128, .f32⟩ : BufTy).Contents (Elt F) → (⟨S50000x128, .f32⟩ : BufTy).Contents (Elt F)),
    binary main_v154 main_v156 main_v157 (addf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32) ]
abbrev ops_17 : List (HloOp τ sig (Elt F)) :=
  [ unary main_cst_19 main_v158 (broadcastInDim S50000x128 ![] bcast_S_S50000x128 : (⟨S_, .f32⟩ : BufTy).Contents (Elt F) → (⟨S50000x128, .f32⟩ : BufTy).Contents (Elt F)),
    binary main_v157 main_v158 main_v159 (cmpf .ogt : (⟨S50000x128, .f32⟩ : BufTy).Contents (Elt F) → (⟨S50000x128, .f32⟩ : BufTy).Contents (Elt F) → (⟨S50000x128, .i1⟩ : BufTy).Contents (Elt F)),
    nullary main_cst_20 (constant S_ .f32 0x3DCCCCCD#32),
    unary main_cst_20 main_v160 (broadcastInDim S50000x128 ![] bcast_S_S50000x128 : (⟨S_, .f32⟩ : BufTy).Contents (Elt F) → (⟨S50000x128, .f32⟩ : BufTy).Contents (Elt F)),
    binary main_v160 main_v157 main_v161 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v159) (TRef.of (T := ⟨S50000x128, .f32⟩) main_v157) (TRef.of (T := ⟨S50000x128, .f32⟩) main_v161) (TRef.of (T := ⟨S50000x128, .f32⟩) main_v162) select ]
def win_0 : List (HloOp τ sig (Elt F)) := ops_0 ++ (ops_1 ++ (ops_2))
def win_1 : List (HloOp τ sig (Elt F)) := ops_3 ++ (ops_4 ++ (ops_5 ++ (ops_6 ++ (ops_7 ++ (ops_8 ++ (ops_9))))))
def win_2 : List (HloOp τ sig (Elt F)) := ops_10 ++ (ops_11 ++ (ops_12 ++ (ops_13 ++ (ops_14 ++ (ops_15 ++ (ops_16))))))
def win_3 : List (HloOp τ sig (Elt F)) := ops_17
def ops : List (HloOp τ sig (Elt F)) := win_0 ++ (win_1 ++ (win_2 ++ win_3))
set_option maxRecDepth 8192 in
set_option maxHeartbeats 4000000 in
theorem main_part0_eq (c : Dev nD) : main_part0 (F := F) c = seq win_0 := rfl
set_option maxRecDepth 8192 in
set_option maxHeartbeats 4000000 in
theorem main_part1_eq (c : Dev nD) : main_part1 (F := F) c = seq win_1 := rfl
set_option maxRecDepth 8192 in
set_option maxHeartbeats 4000000 in
theorem main_part2_eq (c : Dev nD) : main_part2 (F := F) c = seq win_2 := rfl
set_option maxRecDepth 8192 in
set_option maxHeartbeats 4000000 in
theorem main_part3_eq (c : Dev nD) : main_part3 (F := F) c = seq win_3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide

universe u v

-- The k-th list of a list of lists, empty past its end.
def nth {α : Type u} : List (List α) → Nat → List α
  | [], _ => []
  | l :: _, 0 => l
  | _ :: L, k + 1 => nth L k

-- A relation holding position by position between two lists of lists holds between their k-th lists.
theorem nth_rel {α : Type u} {β : Type v} {Q : List α → List β → Prop} (h0 : Q [] []) :
    ∀ {L : List (List α)} {M : List (List β)}, List.Forall₂ Q L M → ∀ k, Q (nth L k) (nth M k)
  | _, _, .nil, _ => h0
  | _, _, .cons h _, 0 => h
  | _, _, .cons _ t, k + 1 => nth_rel h0 t k

def S : List (List (HloOp τ sig (Elt F))) :=
  [ops_0, ops_1, ops_2, ops_3, ops_4, ops_5, ops_6, ops_7, ops_8, ops_9, ops_10, ops_11, ops_12, ops_13, ops_14, ops_15, ops_16, ops_17]

def Ws : List (List (Ref sig .tc)) :=
  [[main_v0, main_v1, main_v2, main_v3, main_v4, main_v5, main_v6, main_v7, main_cst, main_v8, main_v9, main_v10, main_v11, main_v12, main_v13, main_v14, main_v15, main_v16, main_v17, main_cst_0, main_v18, main_v19, main_cst_1, main_v20, main_v21, main_v22],
   [main_v23, main_v24, main_v25, main_v26, main_v27, main_v28, main_v29, main_v30, main_cst_2, main_v31, main_v32, main_v33, main_v34, main_v35, main_v36, main_v37, main_v38, main_v39, main_v40, main_cst_3, main_v41, main_v42, main_cst_4, main_v43, main_v44, main_v45],
   [main_v46, main_v47, main_v48, main_v49, main_c, main_v50, main_v51, main_c_5],
   [main_v52, main_v53, main_v54, main_v55, main_v56, main_c_6, main_v57, main_v58, main_c_7, main_v59, main_v60, main_v61, main_v62, main_v63],
   [main_v64],
   [main_v65, main_v66, main_v67, main_v68, main_v69, main_v70, main_v71, main_v72, main_v73, main_v74, main_v75, main_cst_8, main_v76, main_v77, main_cst_9, main_v78, main_v79],
   [main_v80, main_v81, main_v82, main_v83, main_v84, main_v85, main_v86, main_v87, main_v88],
   [main_call2_cst, main_call2_v0, main_call2_v1, main_call2_v2, main_call2_v3, main_call2_v4, main_call2_v5, main_call2_v6, main_call2_v7, main_call2_v8, main_call2_v9, main_call2_v10, main_call2_v11, main_v89, main_v90],
   [main_cst_10, main_v91, main_v92, main_v93, main_v94],
   [main_c_11, main_v95, main_v96, main_c_12, main_v97, main_v98, main_v99, main_v100, main_v101, main_c_13, main_v102, main_v103],
   [main_c_14, main_v104, main_v105, main_v106, main_v107, main_v108],
   [main_v109],
   [main_v110, main_v111, main_v112, main_v113, main_v114, main_v115, main_v116, main_v117, main_v118, main_v119, main_v120, main_cst_15, main_v121, main_v122, main_cst_16, main_v123, main_v124],
   [main_v125, main_v126, main_v127, main_v128, main_v129, main_v130, main_v131, main_v132, main_v133],
   [main_call3_cst, main_call3_v0, main_call3_v1, main_call3_v2, main_call3_v3, main_call3_v4, main_call3_v5, main_call3_v6, main_call3_v7, main_call3_v8, main_call3_v9, main_call3_v10, main_call3_v11, main_v134, main_v135],
   [main_cst_17, main_v136, main_v137, main_v138, main_v139],
   [main_v140, main_v141, main_v142, main_v143, main_v144, main_v145, main_v146, main_v147, main_cst_18, main_v148, main_v149, main_v150, main_v151, main_v152, main_v153, main_v154, main_v155, main_v156, main_v157, main_cst_19],
   [main_v158, main_v159, main_cst_20, main_v160, main_v161, main_v162]]

def stretch (k : Nat) : List (HloOp τ sig (Elt F)) := nth S k
def W (k : Nat) : List (Ref sig .tc) := nth Ws k

-- What the run asks of one operation, and that it writes only a buffer of the list.
structure Ok (Wl : List (Ref sig .tc)) (op : HloOp τ sig (Elt F)) : Prop where
  bufs : op.bufs ⊆ tcRefs τ sig
  fresh : op.fresh = ∅
  writes : op.writes ⊆ (Wl.map (Proc.devRef (τ := τ) .tc)).toFinset

section
variable {Wl : List (Ref sig .tc)} {x a b c y : Ref sig .tc}

theorem ok_of {op : HloOp τ sig (Elt F)} (hb : op.bufs ⊆ tcRefs τ sig) (hf : op.fresh = ∅)
    (hw : op.writes = {Proc.devRef .tc y}) (hy : y ∈ Wl) : Ok Wl op :=
  ⟨hb, hf, hw ▸ Finset.singleton_subset_iff.mpr (List.mem_toFinset.mpr (List.mem_map_of_mem hy))⟩

theorem ok0 {v hy} (h : y ∈ Wl) : Ok (F := F) Wl (nullary y v hy) := ok_of (nullary_bufs_sub ..) rfl rfl h
theorem ok1 {f hx hy} (h : y ∈ Wl) : Ok (F := F) Wl (unary x y f hx hy) := ok_of (unary_bufs_sub ..) rfl rfl h
theorem ok2 {f ha hb hy} (h : y ∈ Wl) : Ok (F := F) Wl (binary a b y f ha hb hy) := ok_of (binary_bufs_sub ..) rfl rfl h
theorem ok3 {f hc ha hb hy} (h : y ∈ Wl) : Ok (F := F) Wl (ternary c a b y f hc ha hb hy) := ok_of (ternary_bufs_sub ..) rfl rfl h
theorem okR {he hn hx hy} (h : y ∈ Wl) : Ok (F := F) Wl (reshape x y he hn hx hy) := ok_of (reshape_bufs_sub ..) rfl rfl h
theorem okN {n : Nat} {xs : Fin n → Ref sig .tc} {f hxs hy} (h : y ∈ Wl) : Ok (F := F) Wl (nary xs y f hxs hy) := ok_of (nary_bufs_sub ..) rfl rfl h
end

set_option maxRecDepth 8192 in
theorem good_all : List.Forall₂ (fun l Wl => l.Forall (Ok (F := F) Wl)) S Ws :=
  .cons ⟨ok1 (by decide), ok2 (by decide), ok1 (by decide), ok1 (by decide), ok2 (by decide), ok1 (by decide), ok1 (by decide), ok2 (by decide), ok0 (by decide), ok1 (by decide), ok2 (by decide), ok1 (by decide), ok2 (by decide), ok1 (by decide), ok1 (by decide), ok2 (by decide), ok1 (by decide), ok1 (by decide), ok2 (by decide), ok0 (by decide), ok1 (by decide), ok2 (by decide), ok0 (by decide), ok1 (by decide), ok2 (by decide), ok3 (by decide)⟩
    (.cons ⟨ok1 (by decide), ok2 (by decide), ok1 (by decide), ok1 (by decide), ok2 (by decide), ok1 (by decide), ok1 (by decide), ok2 (by decide), ok0 (by decide), ok1 (by decide), ok2 (by decide), ok1 (by decide), ok2 (by decide), ok1 (by decide), ok1 (by decide), ok2 (by decide), ok1 (by decide), ok1 (by decide), ok2 (by decide), ok0 (by decide), ok1 (by decide), ok2 (by decide), ok0 (by decide), ok1 (by decide), ok2 (by decide), ok3 (by decide)⟩
    (.cons ⟨ok1 (by decide), okR (by decide), ok1 (by decide), okR (by decide), ok0 (by decide), ok1 (by decide), ok2 (by decide), ok0 (by decide)⟩
    (.cons ⟨ok1 (by decide), ok2 (by decide), ok3 (by decide), ok1 (by decide), ok2 (by decide), ok0 (by decide), ok1 (by decide), ok2 (by decide), ok0 (by decide), ok1 (by decide), ok2 (by decide), ok3 (by decide), ok1 (by decide), ok2 (by decide)⟩
    (.cons (okN (by decide))
    (.cons ⟨ok1 (by decide), okR (by decide), ok1 (by decide), ok2 (by decide), ok1 (by decide), okR (by decide), ok1 (by decide), ok1 (by decide), ok2 (by decide), ok1 (by decide), ok1 (by decide), ok0 (by decide), ok1 (by decide), ok2 (by decide), ok0 (by decide), ok1 (by decide), ok2 (by decide)⟩
    (.cons ⟨ok1 (by decide), okR (by decide), ok1 (by decide), ok2 (by decide), ok1 (by decide), okR (by decide), ok1 (by decide), ok1 (by decide), ok2 (by decide)⟩
    (.cons ⟨ok0 (by decide), ok1 (by decide), ok2 (by decide), ok1 (by decide), ok2 (by decide), ok2 (by decide), ok1 (by decide), ok2 (by decide), ok1 (by decide), ok1 (by decide), ok1 (by decide), ok1 (by decide), ok2 (by decide), ok3 (by decide), ok2 (by decide)⟩
    (.cons ⟨ok0 (by decide), ok1 (by decide), ok1 (by decide), ok3 (by decide), ok2 (by decide)⟩
    (.cons ⟨ok0 (by decide), ok1 (by decide), ok2 (by decide), ok0 (by decide), ok1 (by decide), ok2 (by decide), ok3 (by decide), ok1 (by decide), ok2 (by decide), ok0 (by decide), ok1 (by decide), ok2 (by decide)⟩
    (.cons ⟨ok0 (by decide), ok1 (by decide), ok2 (by decide), ok3 (by decide), ok1 (by decide), ok2 (by decide)⟩
    (.cons (okN (by decide))
    (.cons ⟨ok1 (by decide), okR (by decide), ok1 (by decide), ok2 (by decide), ok1 (by decide), okR (by decide), ok1 (by decide), ok1 (by decide), ok2 (by decide), ok1 (by decide), ok1 (by decide), ok0 (by decide), ok1 (by decide), ok2 (by decide), ok0 (by decide), ok1 (by decide), ok2 (by decide)⟩
    (.cons ⟨ok1 (by decide), okR (by decide), ok1 (by decide), ok2 (by decide), ok1 (by decide), okR (by decide), ok1 (by decide), ok1 (by decide), ok2 (by decide)⟩
    (.cons ⟨ok0 (by decide), ok1 (by decide), ok2 (by decide), ok1 (by decide), ok2 (by decide), ok2 (by decide), ok1 (by decide), ok2 (by decide), ok1 (by decide), ok1 (by decide), ok1 (by decide), ok1 (by decide), ok2 (by decide), ok3 (by decide), ok2 (by decide)⟩
    (.cons ⟨ok0 (by decide), ok1 (by decide), ok1 (by decide), ok3 (by decide), ok2 (by decide)⟩
    (.cons ⟨ok1 (by decide), ok2 (by decide), ok1 (by decide), ok1 (by decide), ok2 (by decide), ok1 (by decide), ok1 (by decide), ok2 (by decide), ok0 (by decide), ok1 (by decide), ok2 (by decide), ok1 (by decide), ok2 (by decide), ok1 (by decide), ok1 (by decide), ok2 (by decide), ok1 (by decide), ok1 (by decide), ok2 (by decide), ok0 (by decide)⟩
    (.cons ⟨ok1 (by decide), ok2 (by decide), ok0 (by decide), ok1 (by decide), ok2 (by decide), ok3 (by decide)⟩
    (.nil))))))))))))))))))

theorem good (k : Nat) : (stretch (F := F) k).Forall (Ok (W k)) :=
  nth_rel (Q := fun l Wl => l.Forall (Ok (F := F) Wl)) trivial good_all k

theorem mem_ops {op : HloOp τ sig (Elt F)} (h : op ∈ (ops : List (HloOp τ sig (Elt F)))) : ∃ k, op ∈ stretch (F := F) k := by
  simp only [ops, win_0, win_1, win_2, win_3, List.mem_append, or_assoc] at h
  rcases h with h | h | h | h | h | h | h | h | h | h | h | h | h | h | h | h | h | h
  exacts [⟨0, h⟩, ⟨1, h⟩, ⟨2, h⟩, ⟨3, h⟩, ⟨4, h⟩, ⟨5, h⟩, ⟨6, h⟩, ⟨7, h⟩, ⟨8, h⟩, ⟨9, h⟩, ⟨10, h⟩, ⟨11, h⟩, ⟨12, h⟩, ⟨13, h⟩, ⟨14, h⟩, ⟨15, h⟩, ⟨16, h⟩, ⟨17, h⟩]

theorem ok_mem {op : HloOp τ sig (Elt F)} (h : op ∈ (ops : List (HloOp τ sig (Elt F)))) : ∃ k, Ok (W k) op :=
  let ⟨k, hk⟩ := mem_ops h; ⟨k, List.forall_iff_forall_mem.mp (good k) op hk⟩

theorem ops_sub : (ops : List (HloOp τ sig (Elt F))).Forall fun op => op.bufs ⊆ tcRefs τ sig :=
  List.forall_iff_forall_mem.mpr fun _ h => let ⟨_, hk⟩ := ok_mem h; hk.bufs

theorem ops_fresh : ∀ op ∈ (ops : List (HloOp τ sig (Elt F))), op.fresh = ∅ :=
  fun _ h => let ⟨_, hk⟩ := ok_mem h; hk.fresh

-- The buffer contents after the first k stretches.
def val (V0 : Valuation τ sig (Elt F)) : Nat → Valuation τ sig (Elt F)
  | 0 => V0
  | k + 1 => after (stretch k) (val V0 k)

-- A buffer that stretches j … k−1 do not write holds after k stretches what it held after j.
theorem carry (V0 : Valuation τ sig (Elt F)) (r : Ref sig .tc) (j k : Nat) (hjk : j ≤ k) :
    (∀ i, j ≤ i → i < k → r ∉ W i) → val V0 k (Proc.devRef .tc r) = val V0 j (Proc.devRef .tc r) := by
  induction k, hjk using Nat.le_induction with
  | base => exact fun _ => rfl
  | succ k hjk ih =>
    exact fun h => (after_of_writes_sub (stretch k) _
      (List.forall_iff_forall_mem.mpr fun op ho => (List.forall_iff_forall_mem.mp (good k) op ho).writes)
      (h k hjk (Nat.lt_succ_self k))).trans (ih fun i a b => h i a (Nat.lt_succ_of_lt b))

theorem arg (V0 : Valuation τ sig (Elt F)) (r : Ref sig .tc) (k : Nat) (h : ∀ i, 0 ≤ i → i < k → r ∉ W i) :
    val V0 k (no_index (Proc.devRef .tc r)) = V0 (Proc.devRef .tc r) :=
  carry V0 r 0 k (Nat.zero_le k) h

set_option maxRecDepth 8192 in
set_option maxHeartbeats 2000000 in
theorem at_v22 (V0 : Valuation τ sig (Elt F)) (k : Nat) (hk : 1 ≤ k) (h : ∀ i, 1 ≤ i → i < k → main_v22 ∉ W i) :
    val V0 k (no_index (Proc.devRef .tc main_v22)) = val_main_v22 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  refine (carry V0 main_v22 1 k hk h).trans ?_
  show after ops_0 V0 (Proc.devRef .tc main_v22) = _
  after_results_simp
  rfl
set_option maxRecDepth 8192 in
set_option maxHeartbeats 2000000 in
theorem at_v45 (V0 : Valuation τ sig (Elt F)) (k : Nat) (hk : 2 ≤ k) (h : ∀ i, 2 ≤ i → i < k → main_v45 ∉ W i) :
    val V0 k (no_index (Proc.devRef .tc main_v45)) = val_main_v45 (F := F) (V0 (Proc.devRef .tc main_arg2)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  refine (carry V0 main_v45 2 k hk h).trans ?_
  show after ops_1 (val V0 1) (Proc.devRef .tc main_v45) = _
  after_results_simp
  simp only [arg V0 main_arg12 1 (by decide), arg V0 main_arg14 1 (by decide), arg V0 main_arg11 1 (by decide), arg V0 main_arg13 1 (by decide), arg V0 main_arg10 1 (by decide), arg V0 main_arg9 1 (by decide), arg V0 main_arg2 1 (by decide)] <;> rfl
set_option maxRecDepth 8192 in
set_option maxHeartbeats 2000000 in
theorem at_c_5 (V0 : Valuation τ sig (Elt F)) (k : Nat) (hk : 3 ≤ k) (h : ∀ i, 3 ≤ i → i < k → main_c_5 ∉ W i) :
    val V0 k (no_index (Proc.devRef .tc main_c_5)) = val_main_c_5 (F := F) := by
  refine (carry V0 main_c_5 3 k hk h).trans ?_
  show after ops_2 (val V0 2) (Proc.devRef .tc main_c_5) = _
  after_results_simp
  rfl
set_option maxRecDepth 8192 in
set_option maxHeartbeats 2000000 in
theorem at_v49 (V0 : Valuation τ sig (Elt F)) (k : Nat) (hk : 3 ≤ k) (h : ∀ i, 3 ≤ i → i < k → main_v49 ∉ W i) :
    val V0 k (no_index (Proc.devRef .tc main_v49)) = val_main_v49 (F := F) (V0 (Proc.devRef .tc main_arg1)) := by
  refine (carry V0 main_v49 3 k hk h).trans ?_
  show after ops_2 (val V0 2) (Proc.devRef .tc main_v49) = _
  after_results_simp
  simp only [arg V0 main_arg1 2 (by decide)] <;> rfl
set_option maxRecDepth 8192 in
set_option maxHeartbeats 2000000 in
theorem at_v51 (V0 : Valuation τ sig (Elt F)) (k : Nat) (hk : 3 ≤ k) (h : ∀ i, 3 ≤ i → i < k → main_v51 ∉ W i) :
    val V0 k (no_index (Proc.devRef .tc main_v51)) = val_main_v51 (F := F) (V0 (Proc.devRef .tc main_arg1)) := by
  refine (carry V0 main_v51 3 k hk h).trans ?_
  show after ops_2 (val V0 2) (Proc.devRef .tc main_v51) = _
  after_results_simp
  simp only [arg V0 main_arg1 2 (by decide)] <;> rfl
set_option maxRecDepth 8192 in
set_option maxHeartbeats 2000000 in
theorem at_v47 (V0 : Valuation τ sig (Elt F)) (k : Nat) (hk : 3 ≤ k) (h : ∀ i, 3 ≤ i → i < k → main_v47 ∉ W i) :
    val V0 k (no_index (Proc.devRef .tc main_v47)) = val_main_v47 (F := F) (V0 (Proc.devRef .tc main_arg1)) := by
  refine (carry V0 main_v47 3 k hk h).trans ?_
  show after ops_2 (val V0 2) (Proc.devRef .tc main_v47) = _
  after_results_simp
  simp only [arg V0 main_arg1 2 (by decide)] <;> rfl
set_option maxRecDepth 8192 in
set_option maxHeartbeats 2000000 in
theorem at_v56 (V0 : Valuation τ sig (Elt F)) (k : Nat) (hk : 4 ≤ k) (h : ∀ i, 4 ≤ i → i < k → main_v56 ∉ W i) :
    val V0 k (no_index (Proc.devRef .tc main_v56)) = val_main_v56 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  refine (carry V0 main_v56 4 k hk h).trans ?_
  show after ops_3 (val V0 3) (Proc.devRef .tc main_v56) = _
  after_results_simp
  simp only [at_v49 V0 3 (by decide) (by decide), at_c_5 V0 3 (by decide) (by decide), at_v51 V0 3 (by decide) (by decide), at_v22 V0 3 (by decide) (by decide)] <;> rfl
set_option maxRecDepth 8192 in
set_option maxHeartbeats 2000000 in
theorem at_v63 (V0 : Valuation τ sig (Elt F)) (k : Nat) (hk : 4 ≤ k) (h : ∀ i, 4 ≤ i → i < k → main_v63 ∉ W i) :
    val V0 k (no_index (Proc.devRef .tc main_v63)) = val_main_v63 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  refine (carry V0 main_v63 4 k hk h).trans ?_
  show after ops_3 (val V0 3) (Proc.devRef .tc main_v63) = _
  after_results_simp
  simp only [at_v47 V0 3 (by decide) (by decide), at_v22 V0 3 (by decide) (by decide)] <;> rfl
set_option maxRecDepth 8192 in
set_option maxHeartbeats 2000000 in
theorem at_v64 (V0 : Valuation τ sig (Elt F)) (k : Nat) (hk : 5 ≤ k) (h : ∀ i, 5 ≤ i → i < k → main_v64 ∉ W i) :
    val V0 k (no_index (Proc.devRef .tc main_v64)) = val_main_v64 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  refine (carry V0 main_v64 5 k hk h).trans ?_
  show after ops_4 (val V0 4) (Proc.devRef .tc main_v64) = _
  after_results_simp
  dsimp only [Matrix.cons_val]
  rw [at_v56 V0 4 (by decide) (by decide), at_v63 V0 4 (by decide) (by decide), at_v45 V0 4 (by decide) (by decide)]
  rfl
set_option maxRecDepth 8192 in
set_option maxHeartbeats 2000000 in
theorem at_v79 (V0 : Valuation τ sig (Elt F)) (k : Nat) (hk : 6 ≤ k) (h : ∀ i, 6 ≤ i → i < k → main_v79 ∉ W i) :
    val V0 k (no_index (Proc.devRef .tc main_v79)) = val_main_v79 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  refine (carry V0 main_v79 6 k hk h).trans ?_
  show after ops_5 (val V0 5) (Proc.devRef .tc main_v79) = _
  after_results_simp
  simp only [arg V0 main_arg16 5 (by decide), arg V0 main_arg15 5 (by decide), at_v64 V0 5 (by decide) (by decide)] <;> rfl
set_option maxRecDepth 8192 in
set_option maxHeartbeats 2000000 in
theorem at_v88 (V0 : Valuation τ sig (Elt F)) (k : Nat) (hk : 7 ≤ k) (h : ∀ i, 7 ≤ i → i < k → main_v88 ∉ W i) :
    val V0 k (no_index (Proc.devRef .tc main_v88)) = val_main_v88 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg17)) (V0 (Proc.devRef .tc main_arg18)) := by
  refine (carry V0 main_v88 7 k hk h).trans ?_
  show after ops_6 (val V0 6) (Proc.devRef .tc main_v88) = _
  after_results_simp
  simp only [arg V0 main_arg18 6 (by decide), arg V0 main_arg17 6 (by decide), at_v64 V0 6 (by decide) (by decide)] <;> rfl
set_option maxRecDepth 8192 in
set_option maxHeartbeats 2000000 in
theorem at_v90 (V0 : Valuation τ sig (Elt F)) (k : Nat) (hk : 8 ≤ k) (h : ∀ i, 8 ≤ i → i < k → main_v90 ∉ W i) :
    val V0 k (no_index (Proc.devRef .tc main_v90)) = val_main_v90 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  refine (carry V0 main_v90 8 k hk h).trans ?_
  show after ops_7 (val V0 7) (Proc.devRef .tc main_v90) = _
  after_results_simp
  simp only [at_v88 V0 7 (by decide) (by decide), at_v79 V0 7 (by decide) (by decide)] <;> rfl
set_option maxRecDepth 8192 in
set_option maxHeartbeats 2000000 in
theorem at_v94 (V0 : Valuation τ sig (Elt F)) (k : Nat) (hk : 9 ≤ k) (h : ∀ i, 9 ≤ i → i < k → main_v94 ∉ W i) :
    val V0 k (no_index (Proc.devRef .tc main_v94)) = val_main_v94 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  refine (carry V0 main_v94 9 k hk h).trans ?_
  show after ops_8 (val V0 8) (Proc.devRef .tc main_v94) = _
  after_results_simp
  simp only [at_v90 V0 8 (by decide) (by decide), at_v49 V0 8 (by decide) (by decide), at_v22 V0 8 (by decide) (by decide)] <;> rfl
set_option maxRecDepth 8192 in
set_option maxHeartbeats 2000000 in
theorem at_v103 (V0 : Valuation τ sig (Elt F)) (k : Nat) (hk : 10 ≤ k) (h : ∀ i, 10 ≤ i → i < k → main_v103 ∉ W i) :
    val V0 k (no_index (Proc.devRef .tc main_v103)) = val_main_v103 (F := F) (V0 (Proc.devRef .tc main_arg1)) := by
  refine (carry V0 main_v103 10 k hk h).trans ?_
  show after ops_9 (val V0 9) (Proc.devRef .tc main_v103) = _
  after_results_simp
  simp only [at_v47 V0 9 (by decide) (by decide)] <;> rfl
set_option maxRecDepth 8192 in
set_option maxHeartbeats 2000000 in
theorem at_v101 (V0 : Valuation τ sig (Elt F)) (k : Nat) (hk : 10 ≤ k) (h : ∀ i, 10 ≤ i → i < k → main_v101 ∉ W i) :
    val V0 k (no_index (Proc.devRef .tc main_v101)) = val_main_v101 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  refine (carry V0 main_v101 10 k hk h).trans ?_
  show after ops_9 (val V0 9) (Proc.devRef .tc main_v101) = _
  after_results_simp
  simp only [at_v49 V0 9 (by decide) (by decide), at_v94 V0 9 (by decide) (by decide)] <;> rfl
set_option maxRecDepth 8192 in
set_option maxHeartbeats 2000000 in
theorem at_v108 (V0 : Valuation τ sig (Elt F)) (k : Nat) (hk : 11 ≤ k) (h : ∀ i, 11 ≤ i → i < k → main_v108 ∉ W i) :
    val V0 k (no_index (Proc.devRef .tc main_v108)) = val_main_v108 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  refine (carry V0 main_v108 11 k hk h).trans ?_
  show after ops_10 (val V0 10) (Proc.devRef .tc main_v108) = _
  after_results_simp
  simp only [at_v47 V0 10 (by decide) (by decide), at_v103 V0 10 (by decide) (by decide), at_v94 V0 10 (by decide) (by decide)] <;> rfl
set_option maxRecDepth 8192 in
set_option maxHeartbeats 2000000 in
theorem at_v109 (V0 : Valuation τ sig (Elt F)) (k : Nat) (hk : 12 ≤ k) (h : ∀ i, 12 ≤ i → i < k → main_v109 ∉ W i) :
    val V0 k (no_index (Proc.devRef .tc main_v109)) = val_main_v109 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  refine (carry V0 main_v109 12 k hk h).trans ?_
  show after ops_11 (val V0 11) (Proc.devRef .tc main_v109) = _
  after_results_simp
  dsimp only [Matrix.cons_val]
  rw [at_v101 V0 11 (by decide) (by decide), at_v108 V0 11 (by decide) (by decide), at_v45 V0 11 (by decide) (by decide)]
  rfl
set_option maxRecDepth 8192 in
set_option maxHeartbeats 2000000 in
theorem at_v124 (V0 : Valuation τ sig (Elt F)) (k : Nat) (hk : 13 ≤ k) (h : ∀ i, 13 ≤ i → i < k → main_v124 ∉ W i) :
    val V0 k (no_index (Proc.devRef .tc main_v124)) = val_main_v124 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  refine (carry V0 main_v124 13 k hk h).trans ?_
  show after ops_12 (val V0 12) (Proc.devRef .tc main_v124) = _
  after_results_simp
  simp only [arg V0 main_arg16 12 (by decide), arg V0 main_arg15 12 (by decide), at_v109 V0 12 (by decide) (by decide)] <;> rfl
set_option maxRecDepth 8192 in
set_option maxHeartbeats 2000000 in
theorem at_v133 (V0 : Valuation τ sig (Elt F)) (k : Nat) (hk : 14 ≤ k) (h : ∀ i, 14 ≤ i → i < k → main_v133 ∉ W i) :
    val V0 k (no_index (Proc.devRef .tc main_v133)) = val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  refine (carry V0 main_v133 14 k hk h).trans ?_
  show after ops_13 (val V0 13) (Proc.devRef .tc main_v133) = _
  after_results_simp
  simp only [arg V0 main_arg18 13 (by decide), arg V0 main_arg17 13 (by decide), at_v109 V0 13 (by decide) (by decide)] <;> rfl
set_option maxRecDepth 8192 in
set_option maxHeartbeats 2000000 in
theorem at_v135 (V0 : Valuation τ sig (Elt F)) (k : Nat) (hk : 15 ≤ k) (h : ∀ i, 15 ≤ i → i < k → main_v135 ∉ W i) :
    val V0 k (no_index (Proc.devRef .tc main_v135)) = val_main_v135 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  refine (carry V0 main_v135 15 k hk h).trans ?_
  show after ops_14 (val V0 14) (Proc.devRef .tc main_v135) = _
  after_results_simp
  simp only [at_v133 V0 14 (by decide) (by decide), at_v124 V0 14 (by decide) (by decide)] <;> rfl
set_option maxRecDepth 8192 in
set_option maxHeartbeats 2000000 in
theorem at_v139 (V0 : Valuation τ sig (Elt F)) (k : Nat) (hk : 16 ≤ k) (h : ∀ i, 16 ≤ i → i < k → main_v139 ∉ W i) :
    val V0 k (no_index (Proc.devRef .tc main_v139)) = val_main_v139 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  refine (carry V0 main_v139 16 k hk h).trans ?_
  show after ops_15 (val V0 15) (Proc.devRef .tc main_v139) = _
  after_results_simp
  simp only [at_v135 V0 15 (by decide) (by decide), at_v49 V0 15 (by decide) (by decide), at_v94 V0 15 (by decide) (by decide)] <;> rfl
set_option maxRecDepth 8192 in
set_option maxHeartbeats 2000000 in
theorem at_cst_19 (V0 : Valuation τ sig (Elt F)) (k : Nat) (hk : 17 ≤ k) (h : ∀ i, 17 ≤ i → i < k → main_cst_19 ∉ W i) :
    val V0 k (no_index (Proc.devRef .tc main_cst_19)) = val_main_cst_19 (F := F) := by
  refine (carry V0 main_cst_19 17 k hk h).trans ?_
  show after ops_16 (val V0 16) (Proc.devRef .tc main_cst_19) = _
  after_results_simp
  rfl
set_option maxRecDepth 8192 in
set_option maxHeartbeats 2000000 in
theorem at_v157 (V0 : Valuation τ sig (Elt F)) (k : Nat) (hk : 17 ≤ k) (h : ∀ i, 17 ≤ i → i < k → main_v157 ∉ W i) :
    val V0 k (no_index (Proc.devRef .tc main_v157)) = val_main_v157 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) := by
  refine (carry V0 main_v157 17 k hk h).trans ?_
  show after ops_16 (val V0 16) (Proc.devRef .tc main_v157) = _
  after_results_simp
  simp only [arg V0 main_arg22 16 (by decide), arg V0 main_arg24 16 (by decide), arg V0 main_arg21 16 (by decide), arg V0 main_arg23 16 (by decide), arg V0 main_arg20 16 (by decide), arg V0 main_arg19 16 (by decide), at_v139 V0 16 (by decide) (by decide)] <;> rfl
set_option maxRecDepth 8192 in
set_option maxHeartbeats 2000000 in
theorem at_v162 (V0 : Valuation τ sig (Elt F)) (k : Nat) (hk : 18 ≤ k) (h : ∀ i, 18 ≤ i → i < k → main_v162 ∉ W i) :
    val V0 k (no_index (Proc.devRef .tc main_v162)) = val_main_v162 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) := by
  refine (carry V0 main_v162 18 k hk h).trans ?_
  show after ops_17 (val V0 17) (Proc.devRef .tc main_v162) = _
  after_results_simp
  simp only [at_v157 V0 17 (by decide) (by decide), at_cst_19 V0 17 (by decide) (by decide)] <;> rfl

theorem after_ops (V0 : Valuation τ sig (Elt F)) : after ops V0 = val V0 18 := by
  simp only [ops, win_0, win_1, win_2, win_3, after_append]
  rfl

set_option maxRecDepth 8192 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v162) = val_main_v162 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => by
      refine ⟨(h c _).trans ((congrFun (after_ops _) _).trans (at_v162 _ 18 (by decide) (by decide))), ?_⟩
      repeat' apply And.intro
      all_goals exact (h c _).trans ((congrFun (after_ops _) _).trans (arg _ _ 18 (by decide))))
    (run_seq scopedRefs_eq scopedSems_eq defs main (fun _ => ops) main_eq (fun _ => ops_sub) m ρ (fun _ => ops_fresh))

end Cert.ReferenceIdeal.RRun

end
-- ==== Proof.RefPure.lean ====
import proofs.«403917_j43920335569181_3_alg».proof.Proof.Net
import proofs.«403917_j43920335569181_3_alg».proof.Proof.LibRows
import Idealize.ShloMosaic.Lib.Pipeline.Value
import Idealize.ShloMosaic.Lib.IdealHost
import Idealize.ShloMosaic.PureOps.Ideal.Laws

noncomputable section

open scoped BigOperators

namespace Cert.RefPure

open Idealize.ShloMosaic Idealize.ShloMosaic.ValueIdx Cert.Spec Cert.Net

-- An index is the tuple of its coordinates.
theorem ix1_of {a : Nat} {i : (⟨1, ![a]⟩ : Shape).Idx} {p : Fin a} (h0 : (i 0).val = p.val) : i = ix1 p :=
  (eq_ix1 i).trans (congrArg ix1 (Fin.ext h0))

theorem ix2_of {a b : Nat} {i : (⟨2, ![a, b]⟩ : Shape).Idx} {p : Fin a} {q : Fin b}
    (h0 : (i 0).val = p.val) (h1 : (i 1).val = q.val) : i = ix2 p q :=
  (eq_ix2 i).trans (congrArg₂ ix2 (Fin.ext h0) (Fin.ext h1))

theorem ix3_of {a b c : Nat} {i : (⟨3, ![a, b, c]⟩ : Shape).Idx} {p : Fin a} {q : Fin b} {r : Fin c}
    (h0 : (i 0).val = p.val) (h1 : (i 1).val = q.val) (h2 : (i 2).val = r.val) : i = ix3 p q r := by
  obtain rfl := Fin.ext h0; obtain rfl := Fin.ext h1; obtain rfl := Fin.ext h2
  exact eq_ix3 i

-- Row j, column kk of a row-major [32, 96] array sits at offset 96 j + kk.
theorem divmod96 (j : Fin 32) (kk : Fin 96) :
    (j.val * 96 + kk.val) / 96 % 32 = j.val ∧ (j.val * 96 + kk.val) % 96 = kk.val := by
  have := j.isLt; have := kk.isLt; omega

-- The selection "z if z > 0 else slope · z" is the leaky rectifier.
theorem lrelu_form (z : EReal) :
    Scalar.select (Ideal.cmp .ogt z (Ideal.ofBits .f32 0x00000000#32)) z (Ideal.ofBits .f32 0x3DCCCCCD#32 * z) = lrelu z := by
  rw [Ideal.ofBits_zero_f32]
  unfold lrelu Scalar.select Ideal.cmp Spec.slope
  by_cases h : (0 : EReal) < z <;> simp [h]

-- One entry of an affine stage, its operands read through any index functions that name row p and channel q.
theorem affine_read {N D O : Nat} (x : Mat N D) (w : Mat O D) (b g be mu v : Vct O) (p : Fin N) (q : Fin O)
    (lx : Fin D → (⟨2, ![N, D]⟩ : Shape).Idx) (rx : Fin D → (⟨2, ![O, D]⟩ : Shape).Idx) (i1 i2 i3 i4 : (⟨1, ![O]⟩ : Shape).Idx)
    (hl : ∀ k, lx k = ix2 p k) (hr : ∀ k, rx k = ix2 q k) (h1 : i1 = ix1 q) (h2 : i2 = ix1 q) (h3 : i3 = ix1 q) (h4 : i4 = ix1 q) :
    lrelu (((∑ k : Fin D, x (lx k) * w (rx k)) + b i1 - mu i2) * scaleDiv (g i3) (v i3) + be i4) = affDiv x w b g be mu v p q := by
  subst h1 h2 h3 h4
  simp only [hl, hr]
  rfl

/-- The gated message of two pre-activations, the logistic function and the softplus written out. -/
def gateExpr (zf zs : EReal) : EReal :=
  Ideal.div (Ideal.ofBits .f32 0x3F800000#32) (Ideal.ofBits .f32 0x3F800000#32 + Ideal.exp (-zf))
    * Scalar.select (Ideal.cmp .une (zs - Ideal.ofBits .f32 0x00000000#32) (zs - Ideal.ofBits .f32 0x00000000#32))
        (zs + Ideal.ofBits .f32 0x00000000#32)
        (max zs (Ideal.ofBits .f32 0x00000000#32)
          + Ideal.log1p (Ideal.exp (-(max (zs - Ideal.ofBits .f32 0x00000000#32) (-(zs - Ideal.ofBits .f32 0x00000000#32))))))

-- The guard "z − 0 differs from itself" never fires.
theorem gate_form (zf zs : EReal) : gateExpr zf zs = sigmoid zf * softplus zs := by
  unfold gateExpr
  rw [Ideal.ofBits_zero_f32, Ideal.ofBits_one_f32]
  unfold softplus sigmoid Scalar.select Ideal.cmp
  simp

-- An index word that is not negative passes the wrap of negative words unchanged.
theorem wrap_nonneg (x y : BitVec 32) (h : 0 ≤ x.toInt) :
    Scalar.select (IntOp.cmpi .slt x 0#32) y x = x := by
  have hs : x.slt 0#32 = false := by
    simp only [BitVec.slt, BitVec.toInt_zero, decide_eq_false_iff_not, not_lt]
    exact h
  unfold Scalar.select IntOp.cmpi
  simp [hs]

section Layer
open Cert.LibRows
variable (hc : Shape.Concatenates [(⟨2, ![1600000, 32]⟩ : Shape), ⟨2, ![1600000, 32]⟩, ⟨2, ![1600000, 32]⟩] ⟨2, ![1600000, 96]⟩ 1)
  (gwf : GatherDims.WF ⟨2, ![50000, 32]⟩ ⟨2, ![1600000, 1]⟩ ⟨2, ![1600000, 32]⟩ [1] [0] [] [0] [] 1 ![1, 32])

/-- Three 32-column arrays over the edges set side by side. -/
def cat3 (x1 x2 x3 : Mat 1600000 32) : Mat 1600000 96 :=
  concatenate (⟨2, ![1600000, 96]⟩ : Shape) 1 [⟨⟨2, ![1600000, 32]⟩, x1⟩, ⟨⟨2, ![1600000, 32]⟩, x2⟩, ⟨⟨2, ![1600000, 32]⟩, x3⟩] hc

-- Column 32 n + k of the three pieces is column k of piece n.
theorem cat3_read (x1 x2 x3 : Mat 1600000 32) (e : Fin 1600000) (k : Fin 32) :
    (cat3 hc x1 x2 x3 (ix2 e (⟨k.val, by omega⟩ : Fin 96)) = x1 (ix2 e k)
      ∧ cat3 hc x1 x2 x3 (ix2 e (⟨32 + k.val, by omega⟩ : Fin 96)) = x2 (ix2 e k))
      ∧ cat3 hc x1 x2 x3 (ix2 e (⟨64 + k.val, by omega⟩ : Fin 96)) = x3 (ix2 e k) := by
  unfold cat3
  refine ⟨⟨concatenate_apply_piece (t := ⟨2, ![1600000, 96]⟩) _ _ _ _ 0 (by simp) _ x1 rfl rfl 0 rfl (ix2 e k) ?_ (Nat.zero_add _),
    concatenate_apply_piece (t := ⟨2, ![1600000, 96]⟩) _ _ _ _ 1 (by simp) _ x2 rfl rfl 32 rfl (ix2 e k) ?_ rfl⟩,
    concatenate_apply_piece (t := ⟨2, ![1600000, 96]⟩) _ _ _ _ 2 (by simp) _ x3 rfl rfl 64 rfl (ix2 e k) ?_ rfl⟩ <;>
  · intro b hb
    match b with
    | ⟨0, _⟩ => rfl
    | ⟨1, _⟩ => exact absurd rfl hb

/-- A gate's pre-activation as the contraction of a 96-column row with a weight slice, plus the bias. -/
def preSum (c : Mat 1600000 96) (W : Ten3 2 32 96) (bb : Mat 2 32) (l : Fin 2) (e : Fin 1600000) (j : Fin 32) : EReal :=
  (∑ kk : Fin 96, c (ix2 e kk) * W (ix3 l j kk)) + bb (ix2 l j)

-- The same contraction read through any index functions that name the row, the weight slice and the bias entry.
theorem preSum_read (c : Mat 1600000 96) (W : Ten3 2 32 96) (bb : Mat 2 32) (l : Fin 2) (e : Fin 1600000) (j : Fin 32)
    (lx : Fin 96 → (⟨2, ![1600000, 96]⟩ : Shape).Idx) (rx : Fin 96 → (⟨3, ![2, 32, 96]⟩ : Shape).Idx) (bx : (⟨2, ![2, 32]⟩ : Shape).Idx)
    (hl : ∀ kk, lx kk = ix2 e kk) (hr : ∀ kk, rx kk = ix3 l j kk) (hb : bx = ix2 l j) :
    (∑ kk : Fin 96, c (lx kk) * W (rx kk)) + bb bx = preSum c W bb l e j := by
  simp only [hl, hr, hb]
  rfl

-- A sum over 96 columns is the sum of its three 32-column parts, each read from its own piece.
theorem preSum_cat3 (x1 x2 x3 : Mat 1600000 32) (W : Ten3 2 32 96) (bb : Mat 2 32) (l : Fin 2) (e : Fin 1600000) (j : Fin 32) :
    preSum (cat3 hc x1 x2 x3) W bb l e j
      = gatePre (fun k => x1 (ix2 e k)) (fun k => x2 (ix2 e k)) (fun k => x3 (ix2 e k)) W bb l j := by
  unfold preSum gatePre
  rw [sum_split3]
  simp only [cat3_read hc x1 x2 x3 e]

-- The gathered row is the row the index word names.
theorem gather_row (h : Mat 50000 32) (w : IVec (⟨2, ![1600000, 1]⟩ : Shape) 32) (e : Fin 1600000) (k : Fin 32)
    (x : BitVec 32) (hw : w (ix2 e (0 : Fin 1)) = x) :
    Host.gather (rowGatherDims 50000 1600000 32 gwf) h w (ix2 e k) = h (ix2 (rowOf 50000 (by omega) x) k) := by
  subst hw
  exact rowGather_apply (by omega) gwf h w e k

-- One layer: gathered rows and the edge's row side by side, contracted, gated, and added into the target rows.
theorem layer_read (A : Args) (l : Fin 2) {h h' : Mat 50000 32} {a : Mat 1600000 32} (hh : h = h') (ha : a = Net.ea A)
    (wd ws wc : IVec (⟨2, ![1600000, 1]⟩ : Shape) 32) (z : Mat 50000 32) (m : Mat 1600000 32)
    (swf : ScatterDims.WF ⟨2, ![50000, 32]⟩ ⟨2, ![1600000, 1]⟩ ⟨2, ![1600000, 32]⟩ [1] [0] [0] 1)
    (hwd : ∀ e, wd (ix2 e (0 : Fin 1)) = dstWord A e) (hws : ∀ e, ws (ix2 e (0 : Fin 1)) = srcWord A e)
    (hwc : ∀ e, wc (ix2 e (0 : Fin 1)) = dstWord A e) (hz : ∀ i, z i = 0)
    (hm : ∀ e j, m (ix2 e j) =
      let c := cat3 hc (Host.gather (rowGatherDims 50000 1600000 32 gwf) h wd) (Host.gather (rowGatherDims 50000 1600000 32 gwf) h ws) a
      gateExpr (preSum c A.wf A.bf l e j) (preSum c A.ws A.bs l e j)) :
    (fun i => h i + Host.scatterAdd (F := Ideal) (φ := .f32) (rowScatterDims 50000 1600000 32 swf) z wc m i)
      = Net.upd A h' (Net.msg A l h') := by
  subst hh ha
  have hmsg : ∀ e j, m (ix2 e j) = Net.msg A l h (ix2 e j) := fun e j => by
    simp only [hm, preSum_cat3, gate_form, fun k => gather_row gwf h wd e k _ (hwd e), fun k => gather_row gwf h ws e k _ (hws e)]
    rfl
  refine Net.eq_arrOf2 _ _ fun r q => ?_
  simp only [rowScatterAdd_apply, hz, hwc, hmsg]

end Layer

end Cert.RefPure

end
-- ==== Proof.RefLayer2.lean ====
import proofs.«403917_j43920335569181_3_alg».proof.Proof.RefRead
import proofs.«403917_j43920335569181_3_alg».proof.Proof.RefPure

noncomputable section

open scoped BigOperators

namespace Cert.RefStages

open Idealize.ShloMosaic Idealize.ShloMosaic.ValueIdx
open Cert.ReferenceIdeal Cert.ReferenceIdeal.ReadC Cert.Spec Cert.Net Cert.RefPure

theorem stage_h0 (A : Args) :
    val_main_v22 (F := Ideal) A.x A.w_in A.b_in A.g_in A.be_in A.m_in A.v_in = Net.h0 A := by
  refine Net.eq_arrOf2 _ _ fun p q => ?_
  simp only [val_main_v22_apply, val_main_v19_apply, val_main_v21_apply, val_main_v17_apply, val_main_v16_apply, val_main_v15_apply, val_main_v14_apply, val_main_v13_apply, val_main_v12_apply, val_main_v11_apply, val_main_v10_apply, val_main_v9_apply, val_main_v7_apply, val_main_v6_apply, val_main_v5_apply, val_main_v4_apply, val_main_v3_apply, val_main_v2_apply, val_main_v1_apply, val_main_v0_apply]
  exact (lrelu_form _).trans (affine_read _ _ _ _ _ _ _ p q _ _ _ _ _ _ (fun _ => ix2_of rfl rfl) (fun _ => ix2_of rfl rfl)
    (ix1_of rfl) (ix1_of rfl) (ix1_of rfl) (ix1_of rfl))

theorem stage_ea (A : Args) :
    val_main_v45 (F := Ideal) A.eattr A.w_e A.b_e A.g_e A.be_e A.m_e A.v_e = Net.ea A := by
  refine Net.eq_arrOf2 _ _ fun p q => ?_
  simp only [val_main_v45_apply, val_main_v42_apply, val_main_v44_apply, val_main_v40_apply, val_main_v39_apply, val_main_v38_apply, val_main_v37_apply, val_main_v36_apply, val_main_v35_apply, val_main_v34_apply, val_main_v33_apply, val_main_v32_apply, val_main_v30_apply, val_main_v29_apply, val_main_v28_apply, val_main_v27_apply, val_main_v26_apply, val_main_v25_apply, val_main_v24_apply, val_main_v23_apply]
  exact (lrelu_form _).trans (affine_read _ _ _ _ _ _ _ p q _ _ _ _ _ _ (fun _ => ix2_of rfl rfl) (fun _ => ix2_of rfl rfl)
    (ix1_of rfl) (ix1_of rfl) (ix1_of rfl) (ix1_of rfl))

-- Rows 1 and 0 of the index array hold the target and the source words.
theorem row_dst (A : Args) (i : S1600000.Idx) : val_main_v49 (F := Ideal) A.ei i = A.ei (ix2 (1 : Fin 2) (i 0)) := by
  rw [val_main_v49_apply, val_main_v48_apply]
  exact congrArg A.ei (ix2_of rfl (Nat.mod_eq_of_lt (i 0).isLt))

theorem row_src (A : Args) (i : S1600000.Idx) : val_main_v47 (F := Ideal) A.ei i = A.ei (ix2 (0 : Fin 2) (i 0)) := by
  rw [val_main_v47_apply, val_main_v46_apply]
  exact congrArg A.ei (ix2_of rfl (Nat.mod_eq_of_lt (i 0).isLt))

theorem stage_h1 (A : Args) (hidx : ∀ i, 0 ≤ (A.ei i).toInt ∧ (A.ei i).toInt < 50000) :
    val_main_v94 (F := Ideal) A.x A.ei A.eattr A.w_in A.b_in A.g_in A.be_in A.m_in A.v_in A.w_e A.b_e A.g_e A.be_e A.m_e A.v_e A.wf A.bf A.ws A.bs = Net.h1 A := by
  refine layer_read (by decide) (by decide) A 0 (stage_h0 A) (stage_ea A) (val_main_v55 (F := Ideal) A.ei) (val_main_v62 (F := Ideal) A.ei) _ _ _ (by decide)
    (fun e => ?_) (fun e => ?_) (fun e => ?_) (fun _ => Ideal.ofBits_zero_f32) fun e j => ?_
  · simp only [val_main_v55_apply, val_main_v54_apply, val_main_v51_apply, val_main_v53_apply, row_dst]
    exact wrap_nonneg _ _ (hidx _).1
  · simp only [val_main_v62_apply, val_main_v61_apply, val_main_v58_apply, val_main_v60_apply, row_src]
    exact wrap_nonneg _ _ (hidx _).1
  · simp only [val_main_v92_apply, row_dst]
    rfl
  · show gateExpr _ _ = _
    congr 1 <;> simp only [val_main_v73_apply, val_main_v68_apply, val_main_v67_apply, val_main_v66_apply, val_main_v65_apply, val_main_v72_apply, val_main_v71_apply, val_main_v70_apply, val_main_v69_apply, val_main_v88_apply, val_main_v83_apply, val_main_v82_apply, val_main_v81_apply, val_main_v80_apply, val_main_v87_apply, val_main_v86_apply, val_main_v85_apply, val_main_v84_apply] <;>
      exact preSum_read _ _ _ _ _ _ _ _ _ (fun _ => ix2_of rfl rfl) (fun kk => ix3_of rfl (divmod96 j kk).1 (divmod96 j kk).2)
        (ix2_of rfl (Nat.mod_eq_of_lt j.isLt))

theorem stage_h2 (A : Args) (hidx : ∀ i, 0 ≤ (A.ei i).toInt ∧ (A.ei i).toInt < 50000) :
    val_main_v139 (F := Ideal) A.x A.ei A.eattr A.w_in A.b_in A.g_in A.be_in A.m_in A.v_in A.w_e A.b_e A.g_e A.be_e A.m_e A.v_e A.wf A.bf A.ws A.bs = Net.h2 A := by
  refine layer_read (by decide) (by decide) A 1 (stage_h1 A hidx) (stage_ea A) (val_main_v100 (F := Ideal) A.ei) (val_main_v107 (F := Ideal) A.ei) _ _ _ (by decide)
    (fun e => ?_) (fun e => ?_) (fun e => ?_) (fun _ => Ideal.ofBits_zero_f32) fun e j => ?_
  · simp only [val_main_v100_apply, val_main_v99_apply, val_main_v96_apply, val_main_v98_apply, row_dst]
    exact wrap_nonneg _ _ (hidx _).1
  · simp only [val_main_v107_apply, val_main_v106_apply, val_main_v103_apply, val_main_v105_apply, row_src]
    exact wrap_nonneg _ _ (hidx _).1
  · simp only [val_main_v137_apply, row_dst]
    rfl
  · show gateExpr _ _ = _
    congr 1 <;> simp only [val_main_v118_apply, val_main_v113_apply, val_main_v112_apply, val_main_v111_apply, val_main_v110_apply, val_main_v117_apply, val_main_v116_apply, val_main_v115_apply, val_main_v114_apply, val_main_v133_apply, val_main_v128_apply, val_main_v127_apply, val_main_v126_apply, val_main_v125_apply, val_main_v132_apply, val_main_v131_apply, val_main_v130_apply, val_main_v129_apply] <;>
      exact preSum_read _ _ _ _ _ _ _ _ _ (fun _ => ix2_of rfl rfl) (fun kk => ix3_of rfl (divmod96 j kk).1 (divmod96 j kk).2)
        (ix2_of rfl (Nat.mod_eq_of_lt j.isLt))

theorem stage_out (A : Args) (hidx : ∀ i, 0 ≤ (A.ei i).toInt ∧ (A.ei i).toInt < 50000) :
    val_main_v162 (F := Ideal) A.x A.ei A.eattr A.w_in A.b_in A.g_in A.be_in A.m_in A.v_in A.w_e A.b_e A.g_e A.be_e A.m_e A.v_e A.wf A.bf A.ws A.bs A.w_out A.b_out A.g_out A.be_out A.m_out A.v_out = Net.out A := by
  unfold Net.out
  rw [← stage_h2 A hidx]
  refine Net.eq_arrOf2 _ _ fun p q => ?_
  simp only [val_main_v162_apply, val_main_v159_apply, val_main_v161_apply, val_main_v157_apply, val_main_v156_apply, val_main_v155_apply, val_main_v154_apply, val_main_v153_apply, val_main_v152_apply, val_main_v151_apply, val_main_v150_apply, val_main_v149_apply, val_main_v147_apply, val_main_v146_apply, val_main_v145_apply, val_main_v144_apply, val_main_v143_apply, val_main_v142_apply, val_main_v141_apply, val_main_v140_apply]
  exact (lrelu_form _).trans (affine_read _ _ _ _ _ _ _ p q _ _ _ _ _ _ (fun _ => ix2_of rfl rfl) (fun _ => ix2_of rfl rfl)
    (ix1_of rfl) (ix1_of rfl) (ix1_of rfl) (ix1_of rfl))

end Cert.RefStages

end
-- ==== Proof.lean ====
import proofs.«403917_j43920335569181_3_alg».proof.Defs
import proofs.«403917_j43920335569181_3_alg».proof.Proof.Gen.Kernel
import proofs.«403917_j43920335569181_3_alg».proof.Proof.Gen.Kernel.Frame
import proofs.«403917_j43920335569181_3_alg».proof.Proof.Gen.KernelIdeal
import proofs.«403917_j43920335569181_3_alg».proof.Proof.Gen.KernelIdeal.Frame
import proofs.«403917_j43920335569181_3_alg».proof.Proof.Gen.ReferenceIdeal
import proofs.«403917_j43920335569181_3_alg».proof.Proof.Gen.Pre_finite_inputs
import proofs.«403917_j43920335569181_3_alg».proof.Proof.PreFacts
import proofs.«403917_j43920335569181_3_alg».proof.Proof.KValue
import proofs.«403917_j43920335569181_3_alg».proof.Proof.RefRun
import proofs.«403917_j43920335569181_3_alg».proof.Proof.RefLayer2
import Idealize.ShloMosaic.Adequacy
import Idealize.ShloMosaic.Init

noncomputable section

namespace Cert.Proof

open Idealize.ShloMosaic Idealize.ShloMosaic.TcCoe Idealize.ShloMosaic.ValueIdx Idealize.SL.Sem
open Cert.Net Cert.RefStages Cert.KernelIdeal.KV

section
open Cert.ReferenceIdeal

-- The reference's argument arrays as launched.
def RArgs (m : (ℓ : Loc nD τ sig) → Buf (Elt Ideal) ℓ) (c : Dev nD) : Args where
  x := m ((c : Thread nD τ).loc main_arg0)
  ei := m ((c : Thread nD τ).loc main_arg1)
  eattr := m ((c : Thread nD τ).loc main_arg2)
  w_in := m ((c : Thread nD τ).loc main_arg3)
  b_in := m ((c : Thread nD τ).loc main_arg4)
  g_in := m ((c : Thread nD τ).loc main_arg5)
  be_in := m ((c : Thread nD τ).loc main_arg6)
  m_in := m ((c : Thread nD τ).loc main_arg7)
  v_in := m ((c : Thread nD τ).loc main_arg8)
  w_e := m ((c : Thread nD τ).loc main_arg9)
  b_e := m ((c : Thread nD τ).loc main_arg10)
  g_e := m ((c : Thread nD τ).loc main_arg11)
  be_e := m ((c : Thread nD τ).loc main_arg12)
  m_e := m ((c : Thread nD τ).loc main_arg13)
  v_e := m ((c : Thread nD τ).loc main_arg14)
  wf := m ((c : Thread nD τ).loc main_arg15)
  bf := m ((c : Thread nD τ).loc main_arg16)
  ws := m ((c : Thread nD τ).loc main_arg17)
  bs := m ((c : Thread nD τ).loc main_arg18)
  w_out := m ((c : Thread nD τ).loc main_arg19)
  b_out := m ((c : Thread nD τ).loc main_arg20)
  g_out := m ((c : Thread nD τ).loc main_arg21)
  be_out := m ((c : Thread nD τ).loc main_arg22)
  m_out := m ((c : Thread nD τ).loc main_arg23)
  v_out := m ((c : Thread nD τ).loc main_arg24)

end

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run _ _ _).mono (fun _ h c => (h c).2) (Cert.ReferenceIdeal.RRun.run (F := Ideal) m ρ)

theorem preserves : Cert.preserves_Kernel_KernelIdeal := trivial

-- Both runs end at Net.out of one bundle of argument arrays: memories that agree on the arguments give the same bundle.
theorem algebraic : Cert.algebraic_KernelIdeal_ReferenceIdeal := by
  intro m ρ m' ρ' hpre hagree
  have hF := fun c => Cert.PreFacts.of_fn (KArgs m c) (hpre c)
  have hA : ∀ c, RArgs m' c = KArgs m c := fun c => by
    obtain ⟨h0, h1, h2, h3, h4, h5, h6, h7, h8, h9, h10, h11, h12, h13, h14, h15, h16, h17, h18, h19, h20, h21, h22, h23, h24⟩ := hagree c
    unfold RArgs KArgs
    rw [h0, h1, h2, h3, h4, h5, h6, h7, h8, h9, h10, h11, h12, h13, h14, h15, h16, h17, h18, h19, h20, h21, h22, h23, h24]
  exact ⟨fun c => Net.out (KArgs m c),
    (θ_run _ _ _).mono (fun _ h c => ⟨(h c).1.trans (kout_eq m ρ c (hF c).1 (hF c).2.1 (hF c).2.2.1 (hF c).2.2.2), (h c).2⟩)
      (Cert.KernelIdeal.Gen.run_value (F := Ideal) m ρ),
    (θ_run _ _ _).mono (fun _ h c => ⟨(h c).1.trans ((stage_out (RArgs m' c) (by rw [hA c]; exact (hF c).2.2.2)).trans (congrArg Net.out (hA c))), (h c).2⟩)
      (Cert.ReferenceIdeal.RRun.run (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
